-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x2 .f32) (main_arg11 : FVec F S2 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg10
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S64x32 .f32) (main_arg9 : FVec F S32 .f32) (main_arg10 : FVec F S32x2 .f32) (main_arg11 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x128 .f32) (main_arg3 : FVec F S128 .f32) (main_arg4 : FVec F S128x128 .f32) (main_arg5 : FVec F S128 .f32) (main_arg6 : FVec F S128x64 .f32) (main_arg7 : FVec F S64 .f32) (main_arg8 : FVec F S64x32 .f32) (main_arg9 : FVec F S32 .f32) (main_arg10 : FVec F S32x2 .f32) (main_arg11 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S1x32 : Shape := ⟨2, ![1, 32]⟩
abbrev S1x2 : Shape := ⟨2, ![1, 2]⟩
abbrev S10000x64 : Shape := ⟨2, ![10000, 64]⟩
abbrev S1 : Shape := ⟨1, ![1]⟩
abbrev S1x1 : Shape := ⟨2, ![1, 1]⟩

abbrev nBuf : Space → Nat
  | .hbm => 108
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x2, .f32⟩
  | .hbm, ⟨11, _⟩ => ⟨S2, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x64, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x64, .f32⟩
  | .hbm, ⟨96, _⟩ => ⟨S1700000x1, .f32⟩
  | .hbm, ⟨97, _⟩ => ⟨S1700000x64, .f32⟩
  | .hbm, ⟨98, _⟩ => ⟨S1700000x64, .f32⟩
  | .hbm, ⟨99, _⟩ => ⟨S_, .f32⟩
  | .hbm, ⟨100, _⟩ => ⟨S100000x64, .f32⟩
  | .hbm, ⟨101, _⟩ => ⟨S1700000x1, .i32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S1x32, .f32⟩
  | .hbm, ⟨106, _⟩ => ⟨S1x2, .f32⟩
  | .hbm, ⟨107, _⟩ => ⟨S1x2, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S10000x64, .f32⟩
  | .local _ .vmem, ⟨31, _⟩ => ⟨S10000x64, .f32⟩
  | .local _ .vmem, ⟨32, _⟩ => ⟨S64x32, .f32⟩
  | .local _ .vmem, ⟨33, _⟩ => ⟨S1x32, .f32⟩
  | .local _ .vmem, ⟨34, _⟩ => ⟨S32x2, .f32⟩
  | .local _ .vmem, ⟨35, _⟩ => ⟨S1x2, .f32⟩
  | .local _ .vmem, ⟨36, _⟩ => ⟨S1x2, .f32⟩
  | .local _ .vmem, ⟨37, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg4_0 : Ref sig .tc := ⟨.vmem, 35, rfl⟩
abbrev cc6_stg5_0 : Ref sig .tc := ⟨.vmem, 36, rfl⟩
abbrev cc6_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem4_0 : DmaSem sig := 35
abbrev cc6_sem5_0 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  shapeCasts_S2_S1x2 : S2.ShapeCasts S1x2
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S64 : S10000x64.Reduces [0] S64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  reduces_S1x2_S1 : S1x2.Reduces [1] S1
  shapeCasts_S1_S1x1 : S1.ShapeCasts S1x1
  broadcasts_S1x1_S1x2 : S1x1.Broadcasts S1x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x32_S1x32_1_0_0_1_n_n_wf : DotDims.WF S1x64 S64x32 S1x32 [1] [0] [0] [1] [] []
  dot_S1x32_S32x2_S1x2_1_0_0_1_n_n_wf : DotDims.WF S1x32 S32x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x2.size a ≤ S32x2.size a
  hwx6_3 : ∀ i : grid6.Coords, EltTy.bits .f32 = 32 ∨ (Rect.block (s := S32x2) S32x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x2.size a ≤ S1x2.size a
  hwx6_5 : ∀ i : grid6.Coords, EltTy.bits .f32 = 32 ∨ (Rect.block (s := S1x2) S1x2.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S32x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v78) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v79) S1x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S1x32 : Shape := ⟨2, ![1, 32]⟩
abbrev S1x2 : Shape := ⟨2, ![1, 2]⟩
abbrev S1 : Shape := ⟨1, ![1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x1, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x1, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S64, .f32⟩
  | 119 => ⟨S1x64, .f32⟩
  | 120 => ⟨S_, .f32⟩
  | 121 => ⟨S1x64, .f32⟩
  | 122 => ⟨S1x64, .f32⟩
  | 123 => ⟨S1x32, .f32⟩
  | 124 => ⟨S1x32, .f32⟩
  | 125 => ⟨S1x32, .f32⟩
  | 126 => ⟨S_, .f32⟩
  | 127 => ⟨S1x32, .f32⟩
  | _ => ⟨S100000x64, .f32⟩

abbrev hbmTy0_1 (i : Nat) : BufTy := match i % 128 with
  | 0 => ⟨S1x32, .f32⟩
  | 1 => ⟨S1x2, .f32⟩
  | 2 => ⟨S1x2, .f32⟩
  | 3 => ⟨S1x2, .f32⟩
  | 4 => ⟨S_, .f32⟩
  | 5 => ⟨S1, .f32⟩
  | 6 => ⟨S_, .f32⟩
  | 7 => ⟨S1, .f32⟩
  | 8 => ⟨S1, .f32⟩
  | 9 => ⟨S1x1, .f32⟩
  | 10 => ⟨S1x2, .f32⟩
  | 11 => ⟨S1x2, .f32⟩
  | 12 => ⟨S1x2, .f32⟩
  | 13 => ⟨S_, .f32⟩
  | 14 => ⟨S1, .f32⟩
  | 15 => ⟨S1x1, .f32⟩
  | 16 => ⟨S1x2, .f32⟩
  | 17 => ⟨S1x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_cst : Ref sig .tc := ⟨.hbm, 91, rfl⟩
abbrev main_call1_v0 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_cst_14 : Ref sig .tc := ⟨.hbm, 117, rfl⟩
abbrev main_v83 : Ref sig .tc := ⟨.hbm, 118, rfl⟩
abbrev main_v84 : Ref sig .tc := ⟨.hbm, 119, rfl⟩
abbrev main_cst_15 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_16 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x32_S1x32_1_0_0_1_n_n_wf : DotDims.WF S1x64 S64x32 S1x32 [1] [0] [0] [1] [] []
  dot_S1x32_S32x2_S1x2_1_0_0_1_n_n_wf : DotDims.WF S1x32 S32x2 S1x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

class Facts : Prop extends Facts₀ where

variable [Facts]
-- ==== Proof.LibRegion.lean ====
import Idealize.ShloMosaic.Lib.Pipeline.RegionsLoop
import Idealize.ShloMosaic.Lib.Pipeline.FrameSuffix
import Idealize.ShloMosaic.Lib.Tactic

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Val : EltTy → Type} {Λ₀ : Labels}

/-- Between two items of a program a core holds every unscoped buffer whole at `V`, its generator register at some state, and owes nothing. -/
abbrev tstate (c : Dev nD) (V : Valuation τ sig Val) : sProp (MT nD τ sig Unit Val ℕ (UR sig nD τ) ℕ) :=
  iprop(StableHlo.held (c : Thread nD τ) (Pipeline.ucRefs τ sig) V ∗ (∃ r, prngReg c r) ∗ ∃ W, owes (c : Thread nD τ) (0 : CellTallies nD τ sig Unit) W)

/-- An unscoped TensorCore reference is among those `tstate` holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A triple that gives back two buffers as read and a third rewritten carries any frame `R₁ ∗ R₂` through; what the buffers held on the way in is forgotten. -/
theorem carry_triple {M : Type} [URA M] {D₀ D₁ D₂ X : Type} (W : (PUnit → sProp M) → sProp M) (R₁ R₂ A₀ A₁ : sProp M)
    (B : X → sProp M) (g : D₂ → X) (A₂ : sProp M)
    (h : ∀ K, iprop(A₀ ∗ A₁ ∗ (∃ x, B x) ∗ (iprop(A₀ ∗ A₁ ∗ A₂) -∗ K ⟨⟩)) ⊢ W K) :
    iprop(R₁ ∗ R₂ ∗ (∃ _ : D₀, A₀) ∗ (∃ _ : D₁, A₁) ∗ ∃ d, B (g d)) ⊢ W fun _ => iprop(R₁ ∗ R₂ ∗ A₀ ∗ A₁ ∗ A₂) := by
  iintro ⟨H₁, H₂, ⟨%d₀, H₃⟩, ⟨%d₁, H₄⟩, ⟨%d₂, H₅⟩⟩
  iapply h
  iframe H₃ H₄
  isplitl [H₅]; · iexists _; iexact H₅
  iintro ⟨H₃, H₄, H₅⟩
  iframe

variable {P : Type} [Fintype P] (cfgs : P → Cfg sig Λ₀) (pdats : (p : P) → (c : Dev nD) → Dat τ Val Unit ℕ (UR sig nD τ) ℕ (cfgs p) c)
  (defs₀ : Defs nD τ sig Val Λ₀)

/-- A kernel region whose only output window is `o`, as a segment from the buffers at `Ui` to `Ui` updated at `o`'s array. -/
def regOf {p : P} (Ui Uo : Dev nD → Valuation τ sig Val) (o : Fin (cfgs p).W) (lf : Pipeline.LaunchFacts (nD := nD) (τ := τ) cfgs p)
    (hb : ∀ c, BodyObligation (pdats p c) defs₀ Variants.none () Set.univ)
    (hA : ∀ c w, (pdats p c).A w = Ui c (Proc.devRef .tc (Pipeline.arrRef (cfgs p).spec w)))
    (hΦi : ∀ c, Pipeline.ΦA (cfgs p).spec c ⊢ (pdats p c).Φ 0)
    (hΦo : ∀ c, (pdats p c).Φ (Fin.last (cfgs p).N) ⊢ Pipeline.ΦA (cfgs p).spec c)
    (hUo : ∀ c, Uo c = Function.update (Ui c) (Proc.devRef .tc (Pipeline.arrRef (cfgs p).spec o)) ((pdats p c).arrAt o (cfgs p).N) := by exact fun _ => rfl)
    (hin : ∀ w, w ≠ o → ((cfgs p).win w).isOut = false := by decide)
    (hq : ∀ c w, (pdats p c).q w = fullShare := by exact fun _ _ => rfl)
    (h0 : ∀ c t, (pdats p c).owed t = 0 := by exact fun _ _ => rfl)
    (hr : ∀ c x, x ∈ (pdats p c).recorded 0 := by exact fun _ _ => trivial) :
    Pipeline.RegionSeg (fun q => (cfgs q).toPCfg (Val := Val)) (fun q => (cfgs q).toPCfg_adm) pdats () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ _ _ p h0
  pre c := tstate c (Ui c)
  post c := tstate c (Uo c)
  X c := iprop(∃ r, prngReg c r)
  Y c := iprop(∃ r, prngReg c r)
  Z c := Pipeline.unscopedRest (Ix := Unit) (Name := ℕ) (U := UR sig nD τ) (Lvl := ℕ) (cfgs p).spec c fun b => Ui c b
  hentry c := by
    rw [Pipeline.ownSems0_none]; unfold Pipeline.Dat.owesAt Pipeline.owesWithin Pipeline.prefHeld
    rw [h0, show (Finset.univ : Finset (Fin 0)) = ∅ from rfl, BI.bigSep_empty]
    have hsplit := Pipeline.arrays_of_unscopedBufs (fun q => (cfgs q).toPCfg (Val := Val)) (fun q => (cfgs q).toPCfg_adm) pdats
      lf.win lf.arr_whole c ((pdats p c).share_full (hq c)) (fun b => Ui c b) (hA c)
    rw [Pipeline.unscopedBufs_held] at hsplit
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun x _ => Or.inl (hr c x)
      iexact HO
    isplitl [Hp] <;> iassumption
  hin c := by
    refine .trans ?_ (hΦi c)
    unfold Pipeline.ΦA
    iintro ⟨Hp, -, Hr⟩; iframe
  hout c := by
    refine (hΦo c).trans ?_
    rw [Pipeline.ownSems0_none]; unfold Pipeline.ΦA
    iintro ⟨Hr, Hp⟩; iframe; iempintro
  hexit c := by
    have hjoin := Pipeline.unscopedBufs_of_arrays (fun q => (cfgs q).toPCfg (Val := Val)) (fun q => (cfgs q).toPCfg_adm) (Ix := Unit) (Name := ℕ) (U := UR sig nD τ) (Lvl := ℕ)
      lf.win lf.arr_whole c pdats ((pdats p c).share_full (hq c)) (fun b => Ui c b) (fun b => Uo c b) ((pdats p c).arrAt · (cfgs p).N)
      (fun w => by
        rw [hUo c]
        by_cases hw : w = o
        · subst hw; exact (Function.update_self _ _ (Ui c)).symm
        · rw [Function.update_of_ne (StableHlo.devRef_ne_of_ne (lf.win.arr_inj.ne hw)), (pdats p c).arrAt_in w (hin w hw)]; exact hA c w)
      (fun b hb => by
        rw [hUo c]
        exact Function.update_of_ne (StableHlo.devRef_ne_of_ne fun e => hb (Finset.mem_image.mpr ⟨o, Finset.mem_univ _, e.symm⟩)) _ _)
    rw [Pipeline.unscopedBufs_held] at hjoin
    unfold Pipeline.Dat.owesAt Pipeline.owesWithin; rw [h0]
    iintro ⟨Ha, ⟨%W, -, HO⟩, HY, Hrest⟩
    imodintro
    isplitl [Ha Hrest]
    · iapply hjoin; iframe
    iframe HY
    iexists W; iexact HO

/-- A stretch of host operations from `tstate` at `W` to `tstate` at `StableHlo.after ops (W c)`. -/
abbrev hostOf (ops : List (HloOp τ sig Val)) (hsub : ops.Forall fun op => op.bufs ⊆ StableHlo.tcRefs τ sig)
    (hfresh : ops.Forall fun op => op.fresh = ∅) (W : Dev nD → Valuation τ sig Val) :
    Pipeline.HostSeg (Ix := Unit) (Name := ℕ) (U := UR sig nD τ) (Lvl := ℕ) (fun q => (cfgs q).toPCfg (Val := Val)) defs₀ Variants.none (fun _ => ∅) (fun _ _ => 0) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W
    fun c => iprop((∃ r, prngReg c r) ∗ ∃ W, owes (c : Thread nD τ) (0 : CellTallies nD τ sig Unit) W)

set_option backward.isDefEq.respectTransparency.types false in
/-- Segments that chain from the launch memory to `Wn` run, from zero counters, to final memories that hold `Wn` at every unscoped buffer. -/
theorem run_segs [DecidableEq P] [∀ e, Nonempty (Val e)] (phinj : Function.Injective (Pipeline.cellOf (nD := nD) (τ := τ) cfgs))
    (m : (ℓ : Loc nD τ sig) → Buf Val ℓ) (ρ : Dev nD → PrngReg)
    (main : Dev nD → Prog (TpuEff nD τ sig Val (Pipeline.Sig Λ₀ P fun p => ((cfgs p).toPCfg (Val := Val)).Adm) .tc) PUnit)
    (segs : List (Pipeline.Seg (fun q => (cfgs q).toPCfg (Val := Val)) (fun q => (cfgs q).toPCfg_adm) pdats () defs₀ Variants.none (fun _ => ∅) (fun _ _ => 0)))
    (hmain : ∀ c, main c = Pipeline.Seg.run segs) (hnd : (Pipeline.Seg.pipes segs).Nodup) (Wn : Dev nD → Valuation τ sig Val)
    (hch : Pipeline.Seg.Chains (fun c => tstate c fun b => (s₀ m ρ).mem ((c : Dev nD), b)) segs fun c =>
      iprop((StableHlo.held (c : Thread nD τ) (Pipeline.ucRefs τ sig) (Wn c) ∗ ∃ r, prngReg c r) ∗ ∃ W, owes (c : Thread nD τ) (0 : CellTallies nD τ sig Unit) W)) :
    θ_run (Pipeline.defs (fun q => (cfgs q).toPCfg (Val := Val)) defs₀) (onTc (τ := τ) main) ⟨m, fun _ => 0, ρ⟩ (fun r => ∀ c : Dev nD,
      ∀ b ∈ Pipeline.ucRefs τ sig, r.2.mem ((c : Thread nD τ).1, b) = Wn c b) :=
  Pipeline.θ_run_regions_kit (fun q => (cfgs q).toPCfg (Val := Val)) (fun q => (cfgs q).toPCfg_adm) pdats () phinj emb₁ defs₀ Variants.none (fun _ => ∅) (fun _ _ => 0) m ρ main segs
    (fun c Q => by rw [hmain c])
    hnd
    (O₀ := 0) (hL := fun _ _ => rfl) (G := fun _ => iprop(emp))
    (u₀ := initOf (Pipeline.cells cfgs phinj) (Pipeline.launchToks cfgs phinj))
    (hu₀ := by
      iintro Hu; imodintro
      isplitl [Hu]
      · iapply (show (ownU (initOf (Pipeline.cells cfgs phinj) (Pipeline.launchToks cfgs phinj)) : sProp (MT nD τ sig Unit Val ℕ (UR sig nD τ) ℕ))
            ⊢ BI.own (emb₁ (initOf (Pipeline.cells cfgs phinj) (Pipeline.launchToks cfgs phinj))) from .rfl)
        iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (T₀ := fun c => tstate c fun b => (s₀ m ρ).mem ((c : Dev nD), b))
    (Tₙ := fun c => iprop(StableHlo.held (c : Thread nD τ) (Pipeline.ucRefs τ sig) (Wn c) ∗ ∃ r, prngReg c r))
    (hch := hch)
    (hinit := by
      refine Pipeline.initEach _ _ fun c => ?_
      rw [show unscopedBufs c (fun b => m ((c : Thread nD τ).loc b)) = StableHlo.held (c : Thread nD τ) (Pipeline.ucRefs τ sig) (fun b => (s₀ m ρ).mem ((c : Dev nD), b))
        from Pipeline.unscopedBufs_held c fun b => (s₀ m ρ).mem ((c : Dev nD), b)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      iframe)
    (hQ := fun _ h => h)

end Cert

end
-- ==== Proof.KB.Reg0.lean ====
import proofs.«169203_j82712480186688_1_alg».proof.Proof.Gen.Kernel.Launch
import proofs.«169203_j82712480186688_1_alg».proof.Proof.Gen.Kernel.Skeleton
import proofs.«169203_j82712480186688_1_alg».proof.Proof.Gen.Kernel.Points
import proofs.«169203_j82712480186688_1_alg».proof.Proof.LibRegion
import Idealize.ShloMosaic.Lib.Pipeline.FrameBody

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: its payload of the two blocks it read, stored whole. -/
def out0_2 (x0 : Vec F S5000x64 .f32) (x1 : Vec F S64x128 .f32) : Vec F S5000x128 .f32 :=
  View.canon [⟨Rect.unit ![0, 0] S5000x128.size inb_S5000x128_S5000x128_0_0,
    k0_pay1 (View.ld x0 (Rect.unit ![0, 0] S5000x64.size inb_S5000x64_S5000x64_0_0))
      (View.ld x1 (Rect.unit ![0, 0] S64x128.size inb_S64x128_S64x128_0_0))⟩]

/-- The body's triple on whole memrefs: the inputs stay as read, the output ends at `out0_2` of them. -/
theorem sound_kernel0 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) Set.univ (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out0_2` of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- The body obligation: the inputs' buffers hold their blocks, so the triple applies; the invariant and the dues pass through. -/
theorem body_obligation0 (c : Dev nD) : BodyObligation (dat0 (F := F) V c) (defs₀ (F := F)) Variants.none () Set.univ := fun t => by
  rw [bigSep_W0, bigSep_W0]
  simp only [before0_0, before0_1]
  rw [after0_0, after0_1, after0_2]
  show _ ⊢ wp _ _ _ (bodyAt0 t) _
  unfold bodyAt0
  refine carry_triple _ _ _ _ _ (owns (c : Thread nD τ) (st0_2 t) fullShare) ((dat0 V c).before 2 t) _
    (sound_kernel0 c _ _ _ _ _ _ _ (iblk0 V c 0 t) (iblk0 V c 1 t))

end Cert.Kernel.Fr

end
-- ==== Proof.KB.Reg1.lean ====
import proofs.«169203_j82712480186688_1_alg».proof.Proof.Gen.Kernel.Launch
import proofs.«169203_j82712480186688_1_alg».proof.Proof.Gen.Kernel.Skeleton
import proofs.«169203_j82712480186688_1_alg».proof.Proof.Gen.Kernel.Points
import proofs.«169203_j82712480186688_1_alg».proof.Proof.LibRegion
import Idealize.ShloMosaic.Lib.Pipeline.FrameBody

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block: its payload of the two blocks it read, stored whole. -/
def out1_2 (x0 : Vec F S5000x128 .f32) (x1 : Vec F S1x128 .f32) : Vec F S5000x128 .f32 :=
  View.canon [⟨Rect.unit ![0, 0] S5000x128.size inb_S5000x128_S5000x128_0_0,
    k1_pay1 (View.ld x0 (Rect.unit ![0, 0] S5000x128.size inb_S5000x128_S5000x128_0_0))
      (View.ld x1 (Rect.unit ![0, 0] S1x128.size inb_S1x128_S1x128_0_0))⟩]

/-- The body's triple on whole memrefs: the inputs stay as read, the output ends at `out1_2` of them. -/
theorem sound_kernel1 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) Set.univ (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out1_2` of the two. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The body obligation: the inputs' buffers hold their blocks, so the triple applies; the invariant and the dues pass through. -/
theorem body_obligation1 (c : Dev nD) : BodyObligation (dat1 (F := F) V c) (defs₀ (F := F)) Variants.none () Set.univ := fun t => by
  rw [bigSep_W1, bigSep_W1]
  simp only [before1_0, before1_1]
  rw [after1_0, after1_1, after1_2]
  show _ ⊢ wp _ _ _ (bodyAt1 t) _
  unfold bodyAt1
  refine carry_triple _ _ _ _ _ (owns (c : Thread nD τ) (st1_2 t) fullShare) ((dat1 V c).before 2 t) _
    (sound_kernel1 c _ _ _ _ _ _ _ (iblk1 V c 0 t) (iblk1 V c 1 t))

end Cert.Kernel.Fr

end
-- ==== Proof.KB.Reg2.lean ====
import proofs.«169203_j82712480186688_1_alg».proof.Proof.Gen.Kernel.Launch
import proofs.«169203_j82712480186688_1_alg».proof.Proof.Gen.Kernel.Skeleton
import proofs.«169203_j82712480186688_1_alg».proof.Proof.Gen.Kernel.Points
import proofs.«169203_j82712480186688_1_alg».proof.Proof.LibRegion
import Idealize.ShloMosaic.Lib.Pipeline.FrameBody

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block: its payload of the two blocks it read, stored whole. -/
def out2_2 (x0 : Vec F S5000x128 .f32) (x1 : Vec F S128x128 .f32) : Vec F S5000x128 .f32 :=
  View.canon [⟨Rect.unit ![0, 0] S5000x128.size inb_S5000x128_S5000x128_0_0,
    k2_pay1 (View.ld x0 (Rect.unit ![0, 0] S5000x128.size inb_S5000x128_S5000x128_0_0))
      (View.ld x1 (Rect.unit ![0, 0] S128x128.size inb_S128x128_S128x128_0_0))⟩]

/-- The body's triple on whole memrefs: the inputs stay as read, the output ends at `out2_2` of them. -/
theorem sound_kernel2 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) Set.univ (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out2_2` of the two. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- The body obligation: the inputs' buffers hold their blocks, so the triple applies; the invariant and the dues pass through. -/
theorem body_obligation2 (c : Dev nD) : BodyObligation (dat2 (F := F) V c) (defs₀ (F := F)) Variants.none () Set.univ := fun t => by
  rw [bigSep_W2, bigSep_W2]
  simp only [before2_0, before2_1]
  rw [after2_0, after2_1, after2_2]
  show _ ⊢ wp _ _ _ (bodyAt2 t) _
  unfold bodyAt2
  refine carry_triple _ _ _ _ _ (owns (c : Thread nD τ) (st2_2 t) fullShare) ((dat2 V c).before 2 t) _
    (sound_kernel2 c _ _ _ _ _ _ _ (iblk2 V c 0 t) (iblk2 V c 1 t))

end Cert.Kernel.Fr

end
-- ==== Proof.KB.Reg3.lean ====
import proofs.«169203_j82712480186688_1_alg».proof.Proof.Gen.Kernel.Launch
import proofs.«169203_j82712480186688_1_alg».proof.Proof.Gen.Kernel.Skeleton
import proofs.«169203_j82712480186688_1_alg».proof.Proof.Gen.Kernel.Points
import proofs.«169203_j82712480186688_1_alg».proof.Proof.LibRegion
import Idealize.ShloMosaic.Lib.Pipeline.FrameBody

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output block: its payload of the two blocks it read, stored whole. -/
def out3_2 (x0 : Vec F S5000x128 .f32) (x1 : Vec F S1x128 .f32) : Vec F S5000x128 .f32 :=
  View.canon [⟨Rect.unit ![0, 0] S5000x128.size inb_S5000x128_S5000x128_0_0,
    k3_pay1 (View.ld x0 (Rect.unit ![0, 0] S5000x128.size inb_S5000x128_S5000x128_0_0))
      (View.ld x1 (Rect.unit ![0, 0] S1x128.size inb_S1x128_S1x128_0_0))⟩]

/-- The body's triple on whole memrefs: the inputs stay as read, the output ends at `out3_2` of them. -/
theorem sound_kernel3 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) Set.univ (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out3_2` of the two. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-- The body obligation: the inputs' buffers hold their blocks, so the triple applies; the invariant and the dues pass through. -/
theorem body_obligation3 (c : Dev nD) : BodyObligation (dat3 (F := F) V c) (defs₀ (F := F)) Variants.none () Set.univ := fun t => by
  rw [bigSep_W3, bigSep_W3]
  simp only [before3_0, before3_1]
  rw [after3_0, after3_1, after3_2]
  show _ ⊢ wp _ _ _ (bodyAt3 t) _
  unfold bodyAt3
  refine carry_triple _ _ _ _ _ (owns (c : Thread nD τ) (st3_2 t) fullShare) ((dat3 V c).before 2 t) _
    (sound_kernel3 c _ _ _ _ _ _ _ (iblk3 V c 0 t) (iblk3 V c 1 t))

end Cert.Kernel.Fr

end
-- ==== Proof.KB.Reg4.lean ====
import proofs.«169203_j82712480186688_1_alg».proof.Proof.Gen.Kernel.Launch
import proofs.«169203_j82712480186688_1_alg».proof.Proof.Gen.Kernel.Skeleton
import proofs.«169203_j82712480186688_1_alg».proof.Proof.Gen.Kernel.Points
import proofs.«169203_j82712480186688_1_alg».proof.Proof.LibRegion
import Idealize.ShloMosaic.Lib.Pipeline.FrameBody

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block: its payload of the two blocks it read, stored whole. -/
def out4_2 (x0 : Vec F S5000x128 .f32) (x1 : Vec F S128x64 .f32) : Vec F S5000x64 .f32 :=
  View.canon [⟨Rect.unit ![0, 0] S5000x64.size inb_S5000x64_S5000x64_0_0,
    k4_pay1 (View.ld x0 (Rect.unit ![0, 0] S5000x128.size inb_S5000x128_S5000x128_0_0))
      (View.ld x1 (Rect.unit ![0, 0] S128x64.size inb_S128x64_S128x64_0_0))⟩]

/-- The body's triple on whole memrefs: the inputs stay as read, the output ends at `out4_2` of them. -/
theorem sound_kernel4 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) Set.univ (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

/-- The proof data: the arrays as the region finds them; after the body at point `t` each input's buffer at its block, the output's at `out4_2` of the two. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-- The body obligation: the inputs' buffers hold their blocks, so the triple applies; the invariant and the dues pass through. -/
theorem body_obligation4 (c : Dev nD) : BodyObligation (dat4 (F := F) V c) (defs₀ (F := F)) Variants.none () Set.univ := fun t => by
  rw [bigSep_W4, bigSep_W4]
  simp only [before4_0, before4_1]
  rw [after4_0, after4_1, after4_2]
  show _ ⊢ wp _ _ _ (bodyAt4 t) _
  unfold bodyAt4
  refine carry_triple _ _ _ _ _ (owns (c : Thread nD τ) (st4_2 t) fullShare) ((dat4 V c).before 2 t) _
    (sound_kernel4 c _ _ _ _ _ _ _ (iblk4 V c 0 t) (iblk4 V c 1 t))

end Cert.Kernel.Fr

end
-- ==== Proof.KB.Reg5.lean ====
import proofs.«169203_j82712480186688_1_alg».proof.Proof.Gen.Kernel.Launch
import proofs.«169203_j82712480186688_1_alg».proof.Proof.Gen.Kernel.Skeleton
import proofs.«169203_j82712480186688_1_alg».proof.Proof.Gen.Kernel.Points
import proofs.«169203_j82712480186688_1_alg».proof.Proof.LibRegion
import Idealize.ShloMosaic.Lib.Pipeline.FrameBody

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output block: its payload of the two blocks it read, stored whole. -/
def out5_2 (x0 : Vec F S5000x64 .f32) (x1 : Vec F S1x64 .f32) : Vec F S5000x64 .f32 :=
  View.canon [⟨Rect.unit ![0, 0] S5000x64.size inb_S5000x64_S5000x64_0_0,
    k5_pay1 (View.ld x0 (Rect.unit ![0, 0] S5000x64.size inb_S5000x64_S5000x64_0_0))
      (View.ld x1 (Rect.unit ![0, 0] S1x64.size inb_S1x64_S1x64_0_0))⟩]

/-- The body's triple on whole memrefs: the inputs stay as read, the output ends at `out5_2` of them. -/
theorem sound_kernel5 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) Set.univ (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

/-- The proof data: the arrays as the region finds them; after the body at point `t` each input's buffer at its block, the output's at `out5_2` of the two. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

/-- The body obligation: the inputs' buffers hold their blocks, so the triple applies; the invariant and the dues pass through. -/
theorem body_obligation5 (c : Dev nD) : BodyObligation (dat5 (F := F) V c) (defs₀ (F := F)) Variants.none () Set.univ := fun t => by
  rw [bigSep_W5, bigSep_W5]
  simp only [before5_0, before5_1]
  rw [after5_0, after5_1, after5_2]
  show _ ⊢ wp _ _ _ (bodyAt5 t) _
  unfold bodyAt5
  refine carry_triple _ _ _ _ _ (owns (c : Thread nD τ) (st5_2 t) fullShare) ((dat5 V c).before 2 t) _
    (sound_kernel5 c _ _ _ _ _ _ _ (iblk5 V c 0 t) (iblk5 V c 1 t))

end Cert.Kernel.Fr

end
-- ==== Proof.KB.Fold.lean ====
import proofs.«169203_j82712480186688_1_alg».proof.Proof.KB.Reg0
import proofs.«169203_j82712480186688_1_alg».proof.Proof.KB.Reg1
import proofs.«169203_j82712480186688_1_alg».proof.Proof.KB.Reg2
import proofs.«169203_j82712480186688_1_alg».proof.Proof.KB.Reg3
import proofs.«169203_j82712480186688_1_alg».proof.Proof.KB.Reg4
import proofs.«169203_j82712480186688_1_alg».proof.Proof.KB.Reg5
import proofs.«169203_j82712480186688_1_alg».proof.Proof.Gen.Kernel.Regions

noncomputable section

namespace Cert.Kernel.Fr

open Cert.Kernel Cert.Kernel.Gen
open Idealize.ShloMosaic Idealize.ShloMosaic.TcCoe

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

/-- Core `c`'s unscoped buffers after item J−1 of @main are `UJ m c`; `XK m c` is region K's output array after the region. -/
abbrev U0 (c : Dev nD) : Valuation τ sig (Elt F) := fun b => m (c, b)
abbrev U1 (c : Dev nD) : Valuation τ sig (Elt F) := StableHlo.after hostOps0 (U0 m c)
def X0 (c : Dev nD) : Buf (Elt F) ((c : Thread nD τ).loc main_v29) := (dat0 (atTc (U1 m)) c).arrAt 2 cfg0.N
abbrev U2 (c : Dev nD) : Valuation τ sig (Elt F) := Function.update (U1 m c) main_v29 (X0 m c)
abbrev U3 (c : Dev nD) : Valuation τ sig (Elt F) := StableHlo.after hostOps1 (U2 m c)
def X1 (c : Dev nD) : Buf (Elt F) ((c : Thread nD τ).loc main_v44) := (dat1 (atTc (U3 m)) c).arrAt 2 cfg1.N
abbrev U4 (c : Dev nD) : Valuation τ sig (Elt F) := Function.update (U3 m c) main_v44 (X1 m c)
def X2 (c : Dev nD) : Buf (Elt F) ((c : Thread nD τ).loc main_v45) := (dat2 (atTc (U4 m)) c).arrAt 2 cfg2.N
abbrev U5 (c : Dev nD) : Valuation τ sig (Elt F) := Function.update (U4 m c) main_v45 (X2 m c)
abbrev U6 (c : Dev nD) : Valuation τ sig (Elt F) := StableHlo.after hostOps3 (U5 m c)
def X3 (c : Dev nD) : Buf (Elt F) ((c : Thread nD τ).loc main_v60) := (dat3 (atTc (U6 m)) c).arrAt 2 cfg3.N
abbrev U7 (c : Dev nD) : Valuation τ sig (Elt F) := Function.update (U6 m c) main_v60 (X3 m c)
def X4 (c : Dev nD) : Buf (Elt F) ((c : Thread nD τ).loc main_v61) := (dat4 (atTc (U7 m)) c).arrAt 2 cfg4.N
abbrev U8 (c : Dev nD) : Valuation τ sig (Elt F) := Function.update (U7 m c) main_v61 (X4 m c)
abbrev U9 (c : Dev nD) : Valuation τ sig (Elt F) := StableHlo.after hostOps5 (U8 m c)
def X5 (c : Dev nD) : Buf (Elt F) ((c : Thread nD τ).loc main_v76) := (dat5 (atTc (U9 m)) c).arrAt 2 cfg5.N
abbrev U10 (c : Dev nD) : Valuation τ sig (Elt F) := Function.update (U9 m c) main_v76 (X5 m c)
abbrev U11 (c : Dev nD) : Valuation τ sig (Elt F) := StableHlo.after hostOps6 (U10 m c)

/-- A host stretch leaves every reference it does not write (a region, below, every buffer but its output array). -/
theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ≠ main_v29) : U2 m c r = U1 m c r :=
  Function.update_of_ne (StableHlo.devRef_ne_of_ne h) _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v44) : U4 m c r = U3 m c r :=
  Function.update_of_ne (StableHlo.devRef_ne_of_ne h) _ _
theorem U5_of (c : Dev nD) (r : Ref sig .tc) (h : r ≠ main_v45) : U5 m c r = U4 m c r :=
  Function.update_of_ne (StableHlo.devRef_ne_of_ne h) _ _
theorem U6_of (c : Dev nD) (r : Ref sig .tc) (h : r ∉ hostOps3_W) : U6 m c r = U5 m c r :=
  StableHlo.after_of_writes_sub hostOps3 _ hostOps3_writes h
theorem U7_of (c : Dev nD) (r : Ref sig .tc) (h : r ≠ main_v60) : U7 m c r = U6 m c r :=
  Function.update_of_ne (StableHlo.devRef_ne_of_ne h) _ _
theorem U8_of (c : Dev nD) (r : Ref sig .tc) (h : r ≠ main_v61) : U8 m c r = U7 m c r :=
  Function.update_of_ne (StableHlo.devRef_ne_of_ne h) _ _
theorem U9_of (c : Dev nD) (r : Ref sig .tc) (h : r ∉ hostOps5_W) : U9 m c r = U8 m c r :=
  StableHlo.after_of_writes_sub hostOps5 _ hostOps5_writes h
theorem U10_of (c : Dev nD) (r : Ref sig .tc) (h : r ≠ main_v76) : U10 m c r = U9 m c r :=
  Function.update_of_ne (StableHlo.devRef_ne_of_ne h) _ _
theorem U11_of (c : Dev nD) (r : Ref sig .tc) (h : r ∉ hostOps6_W) : U11 m c r = U10 m c r :=
  StableHlo.after_of_writes_sub hostOps6 _ hostOps6_writes h

end Cert.Kernel.Fr

end
-- ==== Proof.KB.Reg6.lean ====
import proofs.«169203_j82712480186688_1_alg».proof.Proof.Gen.Kernel.Launch
import proofs.«169203_j82712480186688_1_alg».proof.Proof.Gen.Kernel.Skeleton
import proofs.«169203_j82712480186688_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after point `n`: the zero row at the first point, the point before's afterwards, with this point's row block's column sums added. -/
def acc6 (c : Dev nD) : (n : ℕ) → n < cfg6.N → Vec F S1x64 .f32
  | 0, h => k6_pay2 (k6_pay1 (F := F)) (iblk6 V c 0 ⟨0, h⟩)
  | n + 1, h => k6_pay2 (acc6 c n (Nat.lt_of_succ_lt h)) (iblk6 V c 0 ⟨n + 1, h⟩)

theorem acc6_zero (c : Dev nD) (h : 0 < cfg6.N) :
    acc6 V c 0 h = k6_pay2 (k6_pay1 (F := F)) (iblk6 V c 0 ⟨0, h⟩) := rfl

theorem acc6_succ (c : Dev nD) (n : ℕ) (h : n + 1 < cfg6.N) :
    acc6 V c (n + 1) h = k6_pay2 (acc6 V c n (Nat.lt_of_succ_lt h)) (iblk6 V c 0 ⟨n + 1, h⟩) := rfl

abbrev scM6_0 : Memref sig .tc .vmem S1x64 .f32 := Memref.whole cc6_scratch0

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

/-- The first condition holds at the first point only, the second at the last point only. -/
theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 9 :=
  (by decide +kernel : ∀ t : Fin grid6.N, cond6_1 (grid6.coords t) ↔ t.val = 9)

theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel

abbrev r6_s : Rect S1x64 := Rect.unit (s := S1x64) ![0, 0] S1x64.size inb_S1x64_S1x64_0_0
abbrev r6_o : Rect S1x2 := Rect.unit (s := S1x2) ![0, 0] S1x2.size inb_S1x2_S1x2_0_0

theorem hz6 : (![0, 0] : Fin 2 → ℕ) = fun _ => 0 := by funext a; fin_cases a <;> rfl

theorem cover6_s (p : Vec F S1x64 .f32) (L : List (View.Piece (Elt F) S1x64 .f32)) (y : S1x64.Idx) :
    ∃ pc ∈ ((⟨r6_s, p⟩ : View.Piece (Elt F) S1x64 .f32) :: L), y ∈ pc.1.set :=
  ⟨_, List.mem_cons_self, View.mem_set_unit_zero (S := S1x64) hz6 inb_S1x64_S1x64_0_0 y⟩

theorem cover6_o (p : Vec F S1x2 .f32) (y : S1x2.Idx) :
    ∃ pc ∈ ([⟨r6_o, p⟩] : List (View.Piece (Elt F) S1x2 .f32)), y ∈ pc.1.set :=
  ⟨_, List.mem_cons_self, View.mem_set_unit_zero (S := S1x2) hz6 inb_S1x2_S1x2_0_0 y⟩

section Triples

variable (c : Dev nD) (E : Set ℕ) (i : grid6.Coords)
  (arg1 : Memref sig .tc .vmem S10000x64 .f32) (harg1 : arg1.IsWhole) (arg2 : Memref sig .tc .vmem S64x32 .f32) (harg2 : arg2.IsWhole)
  (arg3 : Memref sig .tc .vmem S1x32 .f32) (harg3 : arg3.IsWhole) (arg4 : Memref sig .tc .vmem S32x2 .f32) (harg4 : arg4.IsWhole)
  (arg5 : Memref sig .tc .vmem S1x2 .f32) (harg5 : arg5.IsWhole) (arg6 : Memref sig .tc .vmem S1x2 .f32) (harg6 : arg6.IsWhole)
  (arg7 : Memref sig .tc .vmem S1x64 .f32) (harg7 : arg7.IsWhole)
  (x0 : Vec F S10000x64 .f32)

set_option maxHeartbeats 1000000 in
/-- A point neither first nor last: the accumulator, at `s`, gets the row block's column sums added. -/
theorem sound_kernel6_mid (hc0 : ¬cond6_0 i) (hc1 : ¬cond6_1 i) (s : Vec F S1x64 .f32) (K : PUnit → sProp 𝕄) :
    iprop(owns (c : Thread nD τ) arg1 fullShare x0 ∗ owns (c : Thread nD τ) arg7 fullShare s
        ∗ (iprop(owns (c : Thread nD τ) arg1 fullShare x0 ∗ owns (c : Thread nD τ) arg7 fullShare (k6_pay2 s x0)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f7, %hf7, H7⟩, Hk⟩
  subst hf0; subst hf7
  sl_exec (disch := first | exact hc0 | exact hc1)
  sl_step
  iapply Hk
  isplitl [H0]
  · iexists f0; isplitr; · ipureintro; rfl
    iexact H0
  iexists _; isplitr
  swap; · iexact H7
  ipureintro
  rw [View.read_writes_eq_canon _ _ _ (cover6_s _ _), View.canon_unit_zero (S := S1x64) hz6]
  simp only [View.readAt_eq_ld, View.ld_unit_zero (S := S1x64) hz6, View.ld_unit_zero (S := S10000x64) hz6]

set_option maxHeartbeats 1000000 in
/-- The first point: the accumulator, at anything, is zeroed before the row block's column sums are added. -/
theorem sound_kernel6_first (hc0 : cond6_0 i) (hc1 : ¬cond6_1 i) (K : PUnit → sProp 𝕄) :
    iprop(owns (c : Thread nD τ) arg1 fullShare x0 ∗ (∃ d, owns (c : Thread nD τ) arg7 fullShare d)
        ∗ (iprop(owns (c : Thread nD τ) arg1 fullShare x0 ∗ owns (c : Thread nD τ) arg7 fullShare (k6_pay2 (k6_pay1 (F := F)) x0)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%d7, %f7, -, H7⟩, Hk⟩
  subst hf0
  sl_exec (disch := first | exact hc0 | exact hc1)
  sl_step
  iapply Hk
  isplitl [H0]
  · iexists f0; isplitr; · ipureintro; rfl
    iexact H0
  iexists _; isplitr
  swap; · iexact H7
  ipureintro
  rw [View.read_writes_eq_canon _ _ _ (cover6_s _ _), View.canon_cons_unit_zero (S := S1x64) hz6]
  sl_unfold_words
  simp only [View.readCov_unit_zero (S := S1x64) _ hz6, View.readAt_eq_ld, View.ld_unit_zero (S := S10000x64) hz6]

set_option maxHeartbeats 2000000 in
/-- The last point: after the addition the accumulator feeds the classifier, whose result is stored over the output block. -/
theorem sound_kernel6_last (hc0 : ¬cond6_0 i) (hc1 : cond6_1 i) (w1 : Vec F S64x32 .f32) (b1 : Vec F S1x32 .f32) (w2 : Vec F S32x2 .f32)
    (b2 : Vec F S1x2 .f32) (s : Vec F S1x64 .f32) (K : PUnit → sProp 𝕄) :
    iprop(owns (c : Thread nD τ) arg1 fullShare x0 ∗ owns (c : Thread nD τ) arg2 fullShare w1 ∗ owns (c : Thread nD τ) arg3 fullShare b1
        ∗ owns (c : Thread nD τ) arg4 fullShare w2 ∗ owns (c : Thread nD τ) arg5 fullShare b2
        ∗ (∃ d, owns (c : Thread nD τ) arg6 fullShare d) ∗ owns (c : Thread nD τ) arg7 fullShare s
        ∗ (iprop(owns (c : Thread nD τ) arg1 fullShare x0 ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (k6_pay3 (k6_pay2 s x0) w1 b1 w2 b2)
            ∗ owns (c : Thread nD τ) arg7 fullShare (k6_pay2 s x0)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, Hk⟩
  subst hf0; subst hf1; subst hf2; subst hf3; subst hf4; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover6_o _), View.canon_unit_zero (S := S1x2) hz6]
    sl_unfold_words
    simp only [View.readCov_unit_zero (S := S1x64) _ hz6, View.readAt_eq_ld, View.ld_unit_zero (S := S1x64) hz6,
      View.ld_unit_zero (S := S10000x64) hz6, View.ld_unit_zero (S := S64x32) hz6, View.ld_unit_zero (S := S1x32) hz6,
      View.ld_unit_zero (S := S32x2) hz6, View.ld_unit_zero (S := S1x2) hz6]
  iexists _; isplitr
  swap; · iexact H7
  ipureintro
  sl_unfold_words
  rw [View.read_writes_eq_canon _ _ _ (cover6_s _ _), View.canon_unit_zero (S := S1x64) hz6]
  simp only [View.readAt_eq_ld, View.ld_unit_zero (S := S1x64) hz6, View.ld_unit_zero (S := S10000x64) hz6]

end Triples

/-- The invariant between points, with the accumulator's buffer at `A`. -/
abbrev inv6 (c : Dev nD) (A : sProp 𝕄) : sProp 𝕄 :=
  iprop((A ∗ Pipeline.scopedRestBut (Ix := Unit) (Name := ℕ) (U := UR sig nD τ) (Lvl := ℕ) (Val := Elt F) spec6 c [cc6_scratch0]) ∗ (∃ r, prngReg c r))

theorem PhiA6_eq (c : Dev nD) : (Pipeline.ΦA spec6 c : sProp 𝕄) = inv6 c iprop(∃ d, owns (c : Thread nD τ) scM6_0 fullShare d) := by
  unfold Pipeline.ΦA; rw [scopedRest6_split]; simp only [scM6_0, owns_whole]; try rfl

/-- The invariant before position `n`: the accumulator at anything before the first point, afterwards at what the point before left. -/
def PhiS6 (c : Dev nD) : (n : ℕ) → n ≤ cfg6.N → sProp 𝕄
  | 0, _ => Pipeline.ΦA spec6 c
  | n + 1, hn => inv6 c (owns (c : Thread nD τ) scM6_0 fullShare (acc6 V c n hn))

/-- The proof data: the arrays as the region finds them; after the body each input's buffer at its block, the output's at the classifier's result on the accumulator; the invariant `PhiS6`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => k6_pay3 (acc6 V c t.val t.isLt) (iblk6 V c 1 t) (iblk6 V c 2 t) (iblk6 V c 3 t) (iblk6 V c 4 t)
  Φ t := PhiS6 V c t.val (Nat.le_of_lt_succ t.isLt)
  q _ := fullShare
  owed _ := 0

theorem A_eq6 (c : Dev nD) (w : Fin cfg6.W) : (dat6 V c).A w = V c (Pipeline.arrRef spec6 w) := rfl

theorem after6_5_last (c : Dev nD) (t : Fin cfg6.N) (ht : t.val = 9) : (dat6 V c).after 5 t
    = k6_pay3 (acc6 V c 9 (lt_of_eq_of_lt ht.symm t.isLt)) (iblk6 V c 1 t) (iblk6 V c 2 t) (iblk6 V c 3 t) (iblk6 V c 4 t) := by
  obtain ⟨n, hn⟩ := t
  dsimp only at ht
  subst ht
  rfl

theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t)
      ∧ (∀ d, (dat6 V c).before 4 t d = iblk6 V c 4 t) := by
  refine ⟨?_, ?_, ?_, ?_, ?_⟩ <;> intro d <;>
    exact ((dat6 V c).before_in_eq_fetched _ rfl (fun _ => rfl) (fun _ _ _ => rfl)
      (fun t => by dsimp only [dat6]; unfold Dat.blockOf iblk6; try rfl) t d).trans (by unfold Dat.fetched Dat.blockOf iblk6; dsimp only [dat6]; try rfl)

set_option maxHeartbeats 4000000 in
/-- The body at any point: its position says which of the three cases it is in and that case's triple applies; the invariant hands over the accumulator and takes it back, the rest passes through. -/
theorem sound_body6 (c : Dev nD) (t : Fin cfg6.N) :
    iprop(PhiS6 V c t.val (Nat.le_of_lt t.isLt) ∗ (dat6 V c).owesAt () t.castSucc
      ∗ (∃ d, owns (c : Thread nD τ) (st6_0 t) fullShare ((dat6 V c).before 0 t d)) ∗ (∃ d, owns (c : Thread nD τ) (st6_1 t) fullShare ((dat6 V c).before 1 t d))
      ∗ (∃ d, owns (c : Thread nD τ) (st6_2 t) fullShare ((dat6 V c).before 2 t d)) ∗ (∃ d, owns (c : Thread nD τ) (st6_3 t) fullShare ((dat6 V c).before 3 t d))
      ∗ (∃ d, owns (c : Thread nD τ) (st6_4 t) fullShare ((dat6 V c).before 4 t d)) ∗ (∃ d, owns (c : Thread nD τ) (st6_5 t) fullShare ((dat6 V c).before 5 t d)))
    ⊢ wp frame (wpE (defs₀ (F := F)) Variants.none c none) Set.univ (bodyAt6 t) fun _ =>
      iprop(inv6 c (owns (c : Thread nD τ) scM6_0 fullShare (acc6 V c t.val t.isLt)) ∗ (dat6 V c).owesAt () t.castSucc
        ∗ owns (c : Thread nD τ) (st6_0 t) fullShare (iblk6 V c 0 t) ∗ owns (c : Thread nD τ) (st6_1 t) fullShare (iblk6 V c 1 t)
        ∗ owns (c : Thread nD τ) (st6_2 t) fullShare (iblk6 V c 2 t) ∗ owns (c : Thread nD τ) (st6_3 t) fullShare (iblk6 V c 3 t)
        ∗ owns (c : Thread nD τ) (st6_4 t) fullShare (iblk6 V c 4 t) ∗ (dat6 V c).leavesExact 5 t) := by
  obtain ⟨e0, e1, e2, e3, e4⟩ := before6 V c t
  simp only [e0, e1, e2, e3, e4]
  unfold bodyAt6
  obtain ⟨_ | n, hn⟩ := t
  · have hc0 : cond6_0 (grid6.coords ⟨0, hn⟩) := (hcond6_0 _).mpr rfl
    have hc1 : ¬cond6_1 (grid6.coords ⟨0, hn⟩) := fun h => absurd ((hcond6_1 _).mp h) (by decide : (0 : ℕ) ≠ 9)
    rw [Dat.leavesExact_idle (dat6 V c) 5 _ (idleAt6_5 _ hc1) (noFlush6_5 _ hc1)]
    dsimp only
    rw [PhiS6, acc6_zero, PhiA6_eq]
    iintro ⟨⟨⟨HS, Hrest⟩, Hg⟩, Ho, ⟨%d0, H0⟩, ⟨%d1, H1⟩, ⟨%d2, H2⟩, ⟨%d3, H3⟩, ⟨%d4, H4⟩, H5⟩
    iapply (sound_kernel6_first c Set.univ _ _ _ _ _ _ _ _ _ _ _ _ _ _ _ (iblk6 V c 0 ⟨0, hn⟩) hc0 hc1 _)
    iframe H0 HS
    iintro ⟨H0, HS⟩
    iframe
    isplitl [HS Hrest]
    · isplitl [HS]; · iexact HS
      iexact Hrest
    iexact Hg
  · have hc0 : ¬cond6_0 (grid6.coords ⟨n + 1, hn⟩) := fun h => Nat.succ_ne_zero n ((hcond6_0 _).mp h)
    by_cases h9 : n + 1 = 9
    · have hc1 : cond6_1 (grid6.coords ⟨n + 1, hn⟩) := (hcond6_1 _).mpr h9
      rw [show (dat6 V c).leavesExact 5 ⟨n + 1, hn⟩ = owns (c : Thread nD τ) (st6_5 ⟨n + 1, hn⟩) fullShare
          (k6_pay3 (acc6 V c (n + 1) hn) (iblk6 V c 1 ⟨n + 1, hn⟩) (iblk6 V c 2 ⟨n + 1, hn⟩) (iblk6 V c 3 ⟨n + 1, hn⟩) (iblk6 V c 4 ⟨n + 1, hn⟩)) from by
        unfold Dat.leavesExact; rw [liveAt6_5 _ hc1]; rfl]
      dsimp only
      rw [PhiS6, acc6_succ]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (sound_kernel6_last c Set.univ _ _ _ _ _ _ _ _ _ _ _ _ _ _ _ (iblk6 V c 0 ⟨n + 1, hn⟩) hc0 hc1 (iblk6 V c 1 ⟨n + 1, hn⟩) (iblk6 V c 2 ⟨n + 1, hn⟩)
        (iblk6 V c 3 ⟨n + 1, hn⟩) (iblk6 V c 4 ⟨n + 1, hn⟩) (acc6 V c n (Nat.lt_of_succ_lt hn)) _)
      iframe H0 H1 H2 H3 H4 HS
      isplitl [H5]; · iexists _; iexact H5
      iintro ⟨H0, H1, H2, H3, H4, H5, HS⟩
      iframe
      isplitl [HS Hrest]
      · isplitl [HS]; · iexact HS
        iexact Hrest
      iexact Hg
    · have hc1 : ¬cond6_1 (grid6.coords ⟨n + 1, hn⟩) := fun h => h9 ((hcond6_1 _).mp h)
      rw [Dat.leavesExact_idle (dat6 V c) 5 _ (idleAt6_5 _ hc1) (noFlush6_5 _ hc1)]
      dsimp only
      rw [PhiS6, acc6_succ]
      iintro ⟨⟨⟨HS, Hrest⟩, Hg⟩, Ho, ⟨%d0, H0⟩, ⟨%d1, H1⟩, ⟨%d2, H2⟩, ⟨%d3, H3⟩, ⟨%d4, H4⟩, H5⟩
      iapply (sound_kernel6_mid c Set.univ _ _ _ _ _ _ _ _ _ _ _ _ _ _ _ (iblk6 V c 0 ⟨n + 1, hn⟩) hc0 hc1 (acc6 V c n (Nat.lt_of_succ_lt hn)) _)
      iframe H0 HS
      iintro ⟨H0, HS⟩
      iframe
      isplitl [HS Hrest]
      · isplitl [HS]; · iexact HS
        iexact Hrest
      iexact Hg

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := .rfl

/-- After the last point the accumulator's contents are forgotten. -/
theorem hout6 (c : Dev nD) : (dat6 V c).Φ (Fin.last cfg6.N) ⊢ (Pipeline.ΦA spec6 c : sProp 𝕄) := by
  rw [show (dat6 V c).Φ (Fin.last cfg6.N) = inv6 c (owns (c : Thread nD τ) scM6_0 fullShare (acc6 V c 9 (lt_of_lt_of_eq (by decide) N_6.symm))) from rfl, PhiA6_eq]
  iintro ⟨⟨HS, Hrest⟩, Hg⟩
  isplitl [HS Hrest]
  · isplitl [HS]
    · iexists _; iexact HS
    iexact Hrest
  iexact Hg

end Cert.Kernel.Fr

end
-- ==== Proof.KB.Fold6.lean ====
import proofs.«169203_j82712480186688_1_alg».proof.Proof.KB.Fold
import proofs.«169203_j82712480186688_1_alg».proof.Proof.KB.Reg6

noncomputable section

namespace Cert.Kernel.Fr

open Cert.Kernel Cert.Kernel.Gen
open Idealize.ShloMosaic Idealize.ShloMosaic.TcCoe

variable {F : FTy → Type} [FloatOps F]

variable (m : (ℓ : Loc nD τ sig) → Buf (Elt F) ℓ)

def X6 (c : Dev nD) : Buf (Elt F) ((c : Thread nD τ).loc main_v79) := (dat6 (atTc (U11 m)) c).arrAt 5 cfg6.N
abbrev U12 (c : Dev nD) : Valuation τ sig (Elt F) := Function.update (U11 m c) main_v79 (X6 m c)

theorem U12_of (c : Dev nD) (r : Ref sig .tc) (h : r ≠ main_v79) : U12 m c r = U11 m c r :=
  Function.update_of_ne (StableHlo.devRef_ne_of_ne h) _ _

end Cert.Kernel.Fr

end
-- ==== Proof.KB.Run.lean ====
import proofs.«169203_j82712480186688_1_alg».proof.Proof.KB.Fold6
import proofs.«169203_j82712480186688_1_alg».proof.Proof.LibRegion
import Idealize.ShloMosaic.Lib.Pipeline.Frame
import Idealize.ShloMosaic.Lib.Pipeline.Regions

noncomputable section

namespace Cert.Kernel.Fr

open Cert.Kernel Cert.Kernel.Gen
open Idealize.ShloMosaic Idealize.ShloMosaic.TcCoe
open Idealize.SL Idealize.SL.BI Idealize.SL.Sem
open Idealize.SL.BI.BIBase Idealize.SL.BI.Laws
open Idealize.ShloMosaic.Pipeline (Dat)

variable {F : FTy → Type} [FloatOps F]

variable (m : (ℓ : Loc nD τ sig) → Buf (Elt F) ℓ) (ρ : Dev nD → PrngReg)

/-- Every region's proof data, each at the contents its region is entered from. -/
def rdat : (p : Fin 7) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U7 m)) c
  | ⟨5, _⟩ => fun c => dat5 (atTc (U9 m)) c
  | ⟨6, _⟩ => fun c => dat6 (atTc (U11 m)) c

/-- @main's twelve items: a host segment per stretch of host operations, a region segment per kernel, each from the fold's contents before it to those after it. -/
abbrev rsegs : List (Pipeline.Seg (pcfgs (F := F)) adm (rdat m) () defs₀ Variants.none (fun _ => ∅) (fun _ _ => 0)) :=
  [ .host (hostOf cfgs defs₀ hostOps0 hostOps0_sub hostOps0_fresh (U0 m)),
    .region (regOf cfgs (rdat m) defs₀ (p := 0) (U1 m) (U2 m) 2 launch0 (body_obligation0 _) (A_eq0 _) (fun _ => .rfl) (fun _ => .rfl)),
    .host (hostOf cfgs defs₀ hostOps1 hostOps1_sub hostOps1_fresh (U2 m)),
    .region (regOf cfgs (rdat m) defs₀ (p := 1) (U3 m) (U4 m) 2 launch1 (body_obligation1 _) (A_eq1 _) (fun _ => .rfl) (fun _ => .rfl)),
    .region (regOf cfgs (rdat m) defs₀ (p := 2) (U4 m) (U5 m) 2 launch2 (body_obligation2 _) (A_eq2 _) (fun _ => .rfl) (fun _ => .rfl)),
    .host (hostOf cfgs defs₀ hostOps3 hostOps3_sub hostOps3_fresh (U5 m)),
    .region (regOf cfgs (rdat m) defs₀ (p := 3) (U6 m) (U7 m) 2 launch3 (body_obligation3 _) (A_eq3 _) (fun _ => .rfl) (fun _ => .rfl)),
    .region (regOf cfgs (rdat m) defs₀ (p := 4) (U7 m) (U8 m) 2 launch4 (body_obligation4 _) (A_eq4 _) (fun _ => .rfl) (fun _ => .rfl)),
    .host (hostOf cfgs defs₀ hostOps5 hostOps5_sub hostOps5_fresh (U8 m)),
    .region (regOf cfgs (rdat m) defs₀ (p := 5) (U9 m) (U10 m) 2 launch5 (body_obligation5 _) (A_eq5 _) (fun _ => .rfl) (fun _ => .rfl)),
    .host (hostOf cfgs defs₀ hostOps6 hostOps6_sub hostOps6_fresh (U10 m)),
    .region (regOf cfgs (rdat m) defs₀ (p := 6) (U11 m) (U12 m) 5 launch6 (body_obligation6 _) (A_eq6 _) (hin6 _) (hout6 _)) ]

set_option backward.isDefEq.respectTransparency.types false in
/-- From any memory with zero counters every weakly fair execution of @main terminates without a fault, each core's every unscoped buffer at the fold's last contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = U12 m c b) :=
  run_segs cfgs (rdat m) defs₀ cellOf_inj m ρ main (rsegs m)
    (fun c => by rw [main_chain c, Pipeline.Seg.run_eq_chain]; rfl)
    (by simp only [rsegs, Pipeline.Seg.pipes_host, Pipeline.Seg.pipes_region, Pipeline.Seg.pipes_nil]; decide)
    (U12 m)
    ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc'⟩

abbrev args : List (Ref sig .tc) :=
  [main_arg0, main_arg1, main_arg2, main_arg3, main_arg4, main_arg5, main_arg6, main_arg7, main_arg8, main_arg9, main_arg10, main_arg11]

/-- No host stretch writes an argument and no region's output array is one, so a memory that holds the fold's last contents holds every argument as launched. -/
theorem kept (c : Dev nD) {s : MemSt nD τ sig (Elt F)} (h : ∀ b ∈ Pipeline.ucRefs τ sig, s.mem ((c : Thread nD τ).1, b) = U12 m c b) :
    args.Forall fun a => s.mem ((c.tc : Thread nD τ).loc a) = m ((c.tc : Thread nD τ).loc a) := by
  refine List.forall_iff_forall_mem.mpr fun a ha => ?_
  obtain ⟨hs, h0, h1, h3, h5, h6, o29, o44, o45, o60, o61, o76, o79⟩ := (by decide : ∀ a ∈ args,
    ¬ (Proc.devRef .tc a : DevRef τ sig).isScoped ∧ a ∉ hostOps0_W ∧ a ∉ hostOps1_W ∧ a ∉ hostOps3_W ∧ a ∉ hostOps5_W ∧ a ∉ hostOps6_W
      ∧ a ≠ main_v29 ∧ a ≠ main_v44 ∧ a ≠ main_v45 ∧ a ≠ main_v60 ∧ a ≠ main_v61 ∧ a ≠ main_v76 ∧ a ≠ main_v79) a ha
  exact (h _ (mem_uc a hs)).trans <| (U12_of m c a o79).trans <| (U11_of m c a h6).trans <| (U10_of m c a o76).trans <|
    (U9_of m c a h5).trans <| (U8_of m c a o61).trans <| (U7_of m c a o60).trans <| (U6_of m c a h3).trans <|
    (U5_of m c a o45).trans <| (U4_of m c a o44).trans <| (U3_of m c a h1).trans <| (U2_of m c a o29).trans <| U1_of m c a h0

/-- Such a memory holds the program's result array at `X6`. -/
theorem result_at (c : Dev nD) {s : MemSt nD τ sig (Elt F)} (h : ∀ b ∈ Pipeline.ucRefs τ sig, s.mem ((c : Thread nD τ).1, b) = U12 m c b) :
    s.mem ((c.tc : Thread nD τ).loc main_v79) = X6 m c :=
  (h _ (mem_uc main_v79 (by decide))).trans (Function.update_self (β := fun b : DevRef τ sig => Buf (Elt F) ((c : Thread nD τ).1, b)) _ _ _)

end Cert.Kernel.Fr

end
-- ==== Proof.KI.Reg0.lean ====
import proofs.«169203_j82712480186688_1_alg».proof.Proof.Gen.KernelIdeal.Launch
import proofs.«169203_j82712480186688_1_alg».proof.Proof.Gen.KernelIdeal.Skeleton
import proofs.«169203_j82712480186688_1_alg».proof.Proof.Gen.KernelIdeal.Points
import proofs.«169203_j82712480186688_1_alg».proof.Proof.LibRegion
import Idealize.ShloMosaic.Lib.Pipeline.FrameBody

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b))

/-- Window `w`'s block at point `t` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: its payload of the two blocks it read, stored whole. -/
def out0_2 (x0 : Vec F S5000x64 .f32) (x1 : Vec F S64x128 .f32) : Vec F S5000x128 .f32 :=
  View.canon [⟨Rect.unit ![0, 0] S5000x128.size inb_S5000x128_S5000x128_0_0,
    k0_pay1 (View.ld x0 (Rect.unit ![0, 0] S5000x64.size inb_S5000x64_S5000x64_0_0))
      (View.ld x1 (Rect.unit ![0, 0] S64x128.size inb_S64x128_S64x128_0_0))⟩]

/-- The body's triple on whole memrefs: the inputs stay as read, the output ends at `out0_2` of them. -/
theorem sound_kernel0 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) Set.univ (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out0_2` of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- The body obligation: the inputs' buffers hold their blocks, so the triple applies; the invariant and the dues pass through. -/
theorem body_obligation0 (c : Dev nD) : BodyObligation (dat0 (F := F) V c) (defs₀ (F := F)) Variants.none () Set.univ := fun t => by
  rw [bigSep_W0, bigSep_W0]
  simp only [before0_0, before0_1]
  rw [after0_0, after0_1, after0_2]
  show _ ⊢ wp _ _ _ (bodyAt0 t) _
  unfold bodyAt0
  refine carry_triple _ _ _ _ _ (owns (c : Thread nD τ) (st0_2 t) fullShare) ((dat0 V c).before 2 t) _
    (sound_kernel0 c _ _ _ _ _ _ _ (iblk0 V c 0 t) (iblk0 V c 1 t))

end Cert.KernelIdeal.Fr

end
-- ==== Proof.KI.Reg1.lean ====
import proofs.«169203_j82712480186688_1_alg».proof.Proof.Gen.KernelIdeal.Launch
import proofs.«169203_j82712480186688_1_alg».proof.Proof.Gen.KernelIdeal.Skeleton
import proofs.«169203_j82712480186688_1_alg».proof.Proof.Gen.KernelIdeal.Points
import proofs.«169203_j82712480186688_1_alg».proof.Proof.LibRegion
import Idealize.ShloMosaic.Lib.Pipeline.FrameBody

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b))

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output block: its payload of the two blocks it read, stored whole. -/
def out1_2 (x0 : Vec F S5000x128 .f32) (x1 : Vec F S1x128 .f32) : Vec F S5000x128 .f32 :=
  View.canon [⟨Rect.unit ![0, 0] S5000x128.size inb_S5000x128_S5000x128_0_0,
    k1_pay1 (View.ld x0 (Rect.unit ![0, 0] S5000x128.size inb_S5000x128_S5000x128_0_0))
      (View.ld x1 (Rect.unit ![0, 0] S1x128.size inb_S1x128_S1x128_0_0))⟩]

/-- The body's triple on whole memrefs: the inputs stay as read, the output ends at `out1_2` of them. -/
theorem sound_kernel1 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) Set.univ (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out1_2` of the two. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The body obligation: the inputs' buffers hold their blocks, so the triple applies; the invariant and the dues pass through. -/
theorem body_obligation1 (c : Dev nD) : BodyObligation (dat1 (F := F) V c) (defs₀ (F := F)) Variants.none () Set.univ := fun t => by
  rw [bigSep_W1, bigSep_W1]
  simp only [before1_0, before1_1]
  rw [after1_0, after1_1, after1_2]
  show _ ⊢ wp _ _ _ (bodyAt1 t) _
  unfold bodyAt1
  refine carry_triple _ _ _ _ _ (owns (c : Thread nD τ) (st1_2 t) fullShare) ((dat1 V c).before 2 t) _
    (sound_kernel1 c _ _ _ _ _ _ _ (iblk1 V c 0 t) (iblk1 V c 1 t))

end Cert.KernelIdeal.Fr

end
-- ==== Proof.KI.Reg2.lean ====
import proofs.«169203_j82712480186688_1_alg».proof.Proof.Gen.KernelIdeal.Launch
import proofs.«169203_j82712480186688_1_alg».proof.Proof.Gen.KernelIdeal.Skeleton
import proofs.«169203_j82712480186688_1_alg».proof.Proof.Gen.KernelIdeal.Points
import proofs.«169203_j82712480186688_1_alg».proof.Proof.LibRegion
import Idealize.ShloMosaic.Lib.Pipeline.FrameBody

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b))

/-- Window `w`'s block at point `t` of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in the output block: its payload of the two blocks it read, stored whole. -/
def out2_2 (x0 : Vec F S5000x128 .f32) (x1 : Vec F S128x128 .f32) : Vec F S5000x128 .f32 :=
  View.canon [⟨Rect.unit ![0, 0] S5000x128.size inb_S5000x128_S5000x128_0_0,
    k2_pay1 (View.ld x0 (Rect.unit ![0, 0] S5000x128.size inb_S5000x128_S5000x128_0_0))
      (View.ld x1 (Rect.unit ![0, 0] S128x128.size inb_S128x128_S128x128_0_0))⟩]

/-- The body's triple on whole memrefs: the inputs stay as read, the output ends at `out2_2` of them. -/
theorem sound_kernel2 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) Set.univ (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out2_2` of the two. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- The body obligation: the inputs' buffers hold their blocks, so the triple applies; the invariant and the dues pass through. -/
theorem body_obligation2 (c : Dev nD) : BodyObligation (dat2 (F := F) V c) (defs₀ (F := F)) Variants.none () Set.univ := fun t => by
  rw [bigSep_W2, bigSep_W2]
  simp only [before2_0, before2_1]
  rw [after2_0, after2_1, after2_2]
  show _ ⊢ wp _ _ _ (bodyAt2 t) _
  unfold bodyAt2
  refine carry_triple _ _ _ _ _ (owns (c : Thread nD τ) (st2_2 t) fullShare) ((dat2 V c).before 2 t) _
    (sound_kernel2 c _ _ _ _ _ _ _ (iblk2 V c 0 t) (iblk2 V c 1 t))

end Cert.KernelIdeal.Fr

end
-- ==== Proof.KI.Reg3.lean ====
import proofs.«169203_j82712480186688_1_alg».proof.Proof.Gen.KernelIdeal.Launch
import proofs.«169203_j82712480186688_1_alg».proof.Proof.Gen.KernelIdeal.Skeleton
import proofs.«169203_j82712480186688_1_alg».proof.Proof.Gen.KernelIdeal.Points
import proofs.«169203_j82712480186688_1_alg».proof.Proof.LibRegion
import Idealize.ShloMosaic.Lib.Pipeline.FrameBody

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b))

/-- Window `w`'s block at point `t` of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output block: its payload of the two blocks it read, stored whole. -/
def out3_2 (x0 : Vec F S5000x128 .f32) (x1 : Vec F S1x128 .f32) : Vec F S5000x128 .f32 :=
  View.canon [⟨Rect.unit ![0, 0] S5000x128.size inb_S5000x128_S5000x128_0_0,
    k3_pay1 (View.ld x0 (Rect.unit ![0, 0] S5000x128.size inb_S5000x128_S5000x128_0_0))
      (View.ld x1 (Rect.unit ![0, 0] S1x128.size inb_S1x128_S1x128_0_0))⟩]

/-- The body's triple on whole memrefs: the inputs stay as read, the output ends at `out3_2` of them. -/
theorem sound_kernel3 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) Set.univ (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x128.size (by rfl))

/-- The proof data: the arrays as the region finds them; after the body at point `t` each input's buffer at its block, the output's at `out3_2` of the two. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-- The body obligation: the inputs' buffers hold their blocks, so the triple applies; the invariant and the dues pass through. -/
theorem body_obligation3 (c : Dev nD) : BodyObligation (dat3 (F := F) V c) (defs₀ (F := F)) Variants.none () Set.univ := fun t => by
  rw [bigSep_W3, bigSep_W3]
  simp only [before3_0, before3_1]
  rw [after3_0, after3_1, after3_2]
  show _ ⊢ wp _ _ _ (bodyAt3 t) _
  unfold bodyAt3
  refine carry_triple _ _ _ _ _ (owns (c : Thread nD τ) (st3_2 t) fullShare) ((dat3 V c).before 2 t) _
    (sound_kernel3 c _ _ _ _ _ _ _ (iblk3 V c 0 t) (iblk3 V c 1 t))

end Cert.KernelIdeal.Fr

end
-- ==== Proof.KI.Reg4.lean ====
import proofs.«169203_j82712480186688_1_alg».proof.Proof.Gen.KernelIdeal.Launch
import proofs.«169203_j82712480186688_1_alg».proof.Proof.Gen.KernelIdeal.Skeleton
import proofs.«169203_j82712480186688_1_alg».proof.Proof.Gen.KernelIdeal.Points
import proofs.«169203_j82712480186688_1_alg».proof.Proof.LibRegion
import Idealize.ShloMosaic.Lib.Pipeline.FrameBody

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b))

/-- Window `w`'s block at point `t` of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body leaves in the output block: its payload of the two blocks it read, stored whole. -/
def out4_2 (x0 : Vec F S5000x128 .f32) (x1 : Vec F S128x64 .f32) : Vec F S5000x64 .f32 :=
  View.canon [⟨Rect.unit ![0, 0] S5000x64.size inb_S5000x64_S5000x64_0_0,
    k4_pay1 (View.ld x0 (Rect.unit ![0, 0] S5000x128.size inb_S5000x128_S5000x128_0_0))
      (View.ld x1 (Rect.unit ![0, 0] S128x64.size inb_S128x64_S128x64_0_0))⟩]

/-- The body's triple on whole memrefs: the inputs stay as read, the output ends at `out4_2` of them. -/
theorem sound_kernel4 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) Set.univ (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

/-- The proof data: the arrays as the region finds them; after the body at point `t` each input's buffer at its block, the output's at `out4_2` of the two. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

/-- The body obligation: the inputs' buffers hold their blocks, so the triple applies; the invariant and the dues pass through. -/
theorem body_obligation4 (c : Dev nD) : BodyObligation (dat4 (F := F) V c) (defs₀ (F := F)) Variants.none () Set.univ := fun t => by
  rw [bigSep_W4, bigSep_W4]
  simp only [before4_0, before4_1]
  rw [after4_0, after4_1, after4_2]
  show _ ⊢ wp _ _ _ (bodyAt4 t) _
  unfold bodyAt4
  refine carry_triple _ _ _ _ _ (owns (c : Thread nD τ) (st4_2 t) fullShare) ((dat4 V c).before 2 t) _
    (sound_kernel4 c _ _ _ _ _ _ _ (iblk4 V c 0 t) (iblk4 V c 1 t))

end Cert.KernelIdeal.Fr

end
-- ==== Proof.KI.Reg5.lean ====
import proofs.«169203_j82712480186688_1_alg».proof.Proof.Gen.KernelIdeal.Launch
import proofs.«169203_j82712480186688_1_alg».proof.Proof.Gen.KernelIdeal.Skeleton
import proofs.«169203_j82712480186688_1_alg».proof.Proof.Gen.KernelIdeal.Points
import proofs.«169203_j82712480186688_1_alg».proof.Proof.LibRegion
import Idealize.ShloMosaic.Lib.Pipeline.FrameBody

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (V : (c : Dev nD) → (b : Ref sig .tc) → Buf (Elt F) ((c : Thread nD τ).loc b))

/-- Window `w`'s block at point `t` of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output block: its payload of the two blocks it read, stored whole. -/
def out5_2 (x0 : Vec F S5000x64 .f32) (x1 : Vec F S1x64 .f32) : Vec F S5000x64 .f32 :=
  View.canon [⟨Rect.unit ![0, 0] S5000x64.size inb_S5000x64_S5000x64_0_0,
    k5_pay1 (View.ld x0 (Rect.unit ![0, 0] S5000x64.size inb_S5000x64_S5000x64_0_0))
      (View.ld x1 (Rect.unit ![0, 0] S1x64.size inb_S1x64_S1x64_0_0))⟩]

/-- The body's triple on whole memrefs: the inputs stay as read, the output ends at `out5_2` of them. -/
theorem sound_kernel5 (c : Dev nD) (i) (arg1) (harg1) (arg2) (harg2) (arg3) (harg3) (x0) (x1)
    (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) Set.univ (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x64.size (by rfl))

/-- The proof data: the arrays as the region finds them; after the body at point `t` each input's buffer at its block, the output's at `out5_2` of the two. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

/-- The body obligation: the inputs' buffers hold their blocks, so the triple applies; the invariant and the dues pass through. -/
theorem body_obligation5 (c : Dev nD) : BodyObligation (dat5 (F := F) V c) (defs₀ (F := F)) Variants.none () Set.univ := fun t => by
  rw [bigSep_W5, bigSep_W5]
  simp only [before5_0, before5_1]
  rw [after5_0, after5_1, after5_2]
  show _ ⊢ wp _ _ _ (bodyAt5 t) _
  unfold bodyAt5
  refine carry_triple _ _ _ _ _ (owns (c : Thread nD τ) (st5_2 t) fullShare) ((dat5 V c).before 2 t) _
    (sound_kernel5 c _ _ _ _ _ _ _ (iblk5 V c 0 t) (iblk5 V c 1 t))

end Cert.KernelIdeal.Fr

end
-- ==== Proof.KI.Fold.lean ====
import proofs.«169203_j82712480186688_1_alg».proof.Proof.KI.Reg0
import proofs.«169203_j82712480186688_1_alg».proof.Proof.KI.Reg1
import proofs.«169203_j82712480186688_1_alg».proof.Proof.KI.Reg2
import proofs.«169203_j82712480186688_1_alg».proof.Proof.KI.Reg3
import proofs.«169203_j82712480186688_1_alg».proof.Proof.KI.Reg4
import proofs.«169203_j82712480186688_1_alg».proof.Proof.KI.Reg5
import proofs.«169203_j82712480186688_1_alg».proof.Proof.Gen.KernelIdeal.Regions

noncomputable section

namespace Cert.KernelIdeal.Fr

open Cert.KernelIdeal Cert.KernelIdeal.Gen
open Idealize.ShloMosaic Idealize.ShloMosaic.TcCoe

variable {F : FTy → Type} [FloatOps F] [Named F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

/-- Core `c`'s unscoped buffers after item J−1 of @main are `UJ m c`; `XK m c` is region K's output array after the region. -/
abbrev U0 (c : Dev nD) : Valuation τ sig (Elt F) := fun b => m (c, b)
abbrev U1 (c : Dev nD) : Valuation τ sig (Elt F) := StableHlo.after hostOps0 (U0 m c)
def X0 (c : Dev nD) : Buf (Elt F) ((c : Thread nD τ).loc main_v29) := (dat0 (atTc (U1 m)) c).arrAt 2 cfg0.N
abbrev U2 (c : Dev nD) : Valuation τ sig (Elt F) := Function.update (U1 m c) main_v29 (X0 m c)
abbrev U3 (c : Dev nD) : Valuation τ sig (Elt F) := StableHlo.after hostOps1 (U2 m c)
def X1 (c : Dev nD) : Buf (Elt F) ((c : Thread nD τ).loc main_v44) := (dat1 (atTc (U3 m)) c).arrAt 2 cfg1.N
abbrev U4 (c : Dev nD) : Valuation τ sig (Elt F) := Function.update (U3 m c) main_v44 (X1 m c)
def X2 (c : Dev nD) : Buf (Elt F) ((c : Thread nD τ).loc main_v45) := (dat2 (atTc (U4 m)) c).arrAt 2 cfg2.N
abbrev U5 (c : Dev nD) : Valuation τ sig (Elt F) := Function.update (U4 m c) main_v45 (X2 m c)
abbrev U6 (c : Dev nD) : Valuation τ sig (Elt F) := StableHlo.after hostOps3 (U5 m c)
def X3 (c : Dev nD) : Buf (Elt F) ((c : Thread nD τ).loc main_v60) := (dat3 (atTc (U6 m)) c).arrAt 2 cfg3.N
abbrev U7 (c : Dev nD) : Valuation τ sig (Elt F) := Function.update (U6 m c) main_v60 (X3 m c)
def X4 (c : Dev nD) : Buf (Elt F) ((c : Thread nD τ).loc main_v61) := (dat4 (atTc (U7 m)) c).arrAt 2 cfg4.N
abbrev U8 (c : Dev nD) : Valuation τ sig (Elt F) := Function.update (U7 m c) main_v61 (X4 m c)
abbrev U9 (c : Dev nD) : Valuation τ sig (Elt F) := StableHlo.after hostOps5 (U8 m c)
def X5 (c : Dev nD) : Buf (Elt F) ((c : Thread nD τ).loc main_v76) := (dat5 (atTc (U9 m)) c).arrAt 2 cfg5.N
abbrev U10 (c : Dev nD) : Valuation τ sig (Elt F) := Function.update (U9 m c) main_v76 (X5 m c)
abbrev U11 (c : Dev nD) : Valuation τ sig (Elt F) := StableHlo.after hostOps6 (U10 m c)

/-- A host stretch leaves every reference it does not write (a region, below, every buffer but its output array). -/
theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ≠ main_v29) : U2 m c r = U1 m c r :=
  Function.update_of_ne (StableHlo.devRef_ne_of_ne h) _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v44) : U4 m c r = U3 m c r :=
  Function.update_of_ne (StableHlo.devRef_ne_of_ne h) _ _
theorem U5_of (c : Dev nD) (r : Ref sig .tc) (h : r ≠ main_v45) : U5 m c r = U4 m c r :=
  Function.update_of_ne (StableHlo.devRef_ne_of_ne h) _ _
theorem U6_of (c : Dev nD) (r : Ref sig .tc) (h : r ∉ hostOps3_W) : U6 m c r = U5 m c r :=
  StableHlo.after_of_writes_sub hostOps3 _ hostOps3_writes h
theorem U7_of (c : Dev nD) (r : Ref sig .tc) (h : r ≠ main_v60) : U7 m c r = U6 m c r :=
  Function.update_of_ne (StableHlo.devRef_ne_of_ne h) _ _
theorem U8_of (c : Dev nD) (r : Ref sig .tc) (h : r ≠ main_v61) : U8 m c r = U7 m c r :=
  Function.update_of_ne (StableHlo.devRef_ne_of_ne h) _ _
theorem U9_of (c : Dev nD) (r : Ref sig .tc) (h : r ∉ hostOps5_W) : U9 m c r = U8 m c r :=
  StableHlo.after_of_writes_sub hostOps5 _ hostOps5_writes h
theorem U10_of (c : Dev nD) (r : Ref sig .tc) (h : r ≠ main_v76) : U10 m c r = U9 m c r :=
  Function.update_of_ne (StableHlo.devRef_ne_of_ne h) _ _
theorem U11_of (c : Dev nD) (r : Ref sig .tc) (h : r ∉ hostOps6_W) : U11 m c r = U10 m c r :=
  StableHlo.after_of_writes_sub hostOps6 _ hostOps6_writes h

end Cert.KernelIdeal.Fr

end
-- ==== Proof.KI.Reg6.lean ====
import proofs.«169203_j82712480186688_1_alg».proof.Proof.Gen.KernelIdeal.Launch
import proofs.«169203_j82712480186688_1_alg».proof.Proof.Gen.KernelIdeal.Skeleton
import proofs.«169203_j82712480186688_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after point `n`: the zero row at the first point, the point before's afterwards, with this point's row block's column sums added. -/
def acc6 (c : Dev nD) : (n : ℕ) → n < cfg6.N → Vec F S1x64 .f32
  | 0, h => k6_pay2 (k6_pay1 (F := F)) (iblk6 V c 0 ⟨0, h⟩)
  | n + 1, h => k6_pay2 (acc6 c n (Nat.lt_of_succ_lt h)) (iblk6 V c 0 ⟨n + 1, h⟩)

theorem acc6_zero (c : Dev nD) (h : 0 < cfg6.N) :
    acc6 V c 0 h = k6_pay2 (k6_pay1 (F := F)) (iblk6 V c 0 ⟨0, h⟩) := rfl

theorem acc6_succ (c : Dev nD) (n : ℕ) (h : n + 1 < cfg6.N) :
    acc6 V c (n + 1) h = k6_pay2 (acc6 V c n (Nat.lt_of_succ_lt h)) (iblk6 V c 0 ⟨n + 1, h⟩) := rfl

abbrev scM6_0 : Memref sig .tc .vmem S1x64 .f32 := Memref.whole cc6_scratch0

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

/-- The first condition holds at the first point only, the second at the last point only. -/
theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 9 :=
  (by decide +kernel : ∀ t : Fin grid6.N, cond6_1 (grid6.coords t) ↔ t.val = 9)

theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel

abbrev r6_s : Rect S1x64 := Rect.unit (s := S1x64) ![0, 0] S1x64.size inb_S1x64_S1x64_0_0
abbrev r6_o : Rect S1x2 := Rect.unit (s := S1x2) ![0, 0] S1x2.size inb_S1x2_S1x2_0_0

theorem hz6 : (![0, 0] : Fin 2 → ℕ) = fun _ => 0 := by funext a; fin_cases a <;> rfl

theorem cover6_s (p : Vec F S1x64 .f32) (L : List (View.Piece (Elt F) S1x64 .f32)) (y : S1x64.Idx) :
    ∃ pc ∈ ((⟨r6_s, p⟩ : View.Piece (Elt F) S1x64 .f32) :: L), y ∈ pc.1.set :=
  ⟨_, List.mem_cons_self, View.mem_set_unit_zero (S := S1x64) hz6 inb_S1x64_S1x64_0_0 y⟩

theorem cover6_o (p : Vec F S1x2 .f32) (y : S1x2.Idx) :
    ∃ pc ∈ ([⟨r6_o, p⟩] : List (View.Piece (Elt F) S1x2 .f32)), y ∈ pc.1.set :=
  ⟨_, List.mem_cons_self, View.mem_set_unit_zero (S := S1x2) hz6 inb_S1x2_S1x2_0_0 y⟩

section Triples

variable (c : Dev nD) (E : Set ℕ) (i : grid6.Coords)
  (arg1 : Memref sig .tc .vmem S10000x64 .f32) (harg1 : arg1.IsWhole) (arg2 : Memref sig .tc .vmem S64x32 .f32) (harg2 : arg2.IsWhole)
  (arg3 : Memref sig .tc .vmem S1x32 .f32) (harg3 : arg3.IsWhole) (arg4 : Memref sig .tc .vmem S32x2 .f32) (harg4 : arg4.IsWhole)
  (arg5 : Memref sig .tc .vmem S1x2 .f32) (harg5 : arg5.IsWhole) (arg6 : Memref sig .tc .vmem S1x2 .f32) (harg6 : arg6.IsWhole)
  (arg7 : Memref sig .tc .vmem S1x64 .f32) (harg7 : arg7.IsWhole)
  (x0 : Vec F S10000x64 .f32)

set_option maxHeartbeats 1000000 in
/-- A point neither first nor last: the accumulator, at `s`, gets the row block's column sums added. -/
theorem sound_kernel6_mid (hc0 : ¬cond6_0 i) (hc1 : ¬cond6_1 i) (s : Vec F S1x64 .f32) (K : PUnit → sProp 𝕄) :
    iprop(owns (c : Thread nD τ) arg1 fullShare x0 ∗ owns (c : Thread nD τ) arg7 fullShare s
        ∗ (iprop(owns (c : Thread nD τ) arg1 fullShare x0 ∗ owns (c : Thread nD τ) arg7 fullShare (k6_pay2 s x0)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f7, %hf7, H7⟩, Hk⟩
  subst hf0; subst hf7
  sl_exec (disch := first | exact hc0 | exact hc1)
  sl_step
  iapply Hk
  isplitl [H0]
  · iexists f0; isplitr; · ipureintro; rfl
    iexact H0
  iexists _; isplitr
  swap; · iexact H7
  ipureintro
  rw [View.read_writes_eq_canon _ _ _ (cover6_s _ _), View.canon_unit_zero (S := S1x64) hz6]
  simp only [View.readAt_eq_ld, View.ld_unit_zero (S := S1x64) hz6, View.ld_unit_zero (S := S10000x64) hz6]

set_option maxHeartbeats 1000000 in
/-- The first point: the accumulator, at anything, is zeroed before the row block's column sums are added. -/
theorem sound_kernel6_first (hc0 : cond6_0 i) (hc1 : ¬cond6_1 i) (K : PUnit → sProp 𝕄) :
    iprop(owns (c : Thread nD τ) arg1 fullShare x0 ∗ (∃ d, owns (c : Thread nD τ) arg7 fullShare d)
        ∗ (iprop(owns (c : Thread nD τ) arg1 fullShare x0 ∗ owns (c : Thread nD τ) arg7 fullShare (k6_pay2 (k6_pay1 (F := F)) x0)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%d7, %f7, -, H7⟩, Hk⟩
  subst hf0
  sl_exec (disch := first | exact hc0 | exact hc1)
  sl_step
  iapply Hk
  isplitl [H0]
  · iexists f0; isplitr; · ipureintro; rfl
    iexact H0
  iexists _; isplitr
  swap; · iexact H7
  ipureintro
  rw [View.read_writes_eq_canon _ _ _ (cover6_s _ _), View.canon_cons_unit_zero (S := S1x64) hz6]
  sl_unfold_words
  simp only [View.readCov_unit_zero (S := S1x64) _ hz6, View.readAt_eq_ld, View.ld_unit_zero (S := S10000x64) hz6]

set_option maxHeartbeats 2000000 in
/-- The last point: after the addition the accumulator feeds the classifier, whose result is stored over the output block. -/
theorem sound_kernel6_last (hc0 : ¬cond6_0 i) (hc1 : cond6_1 i) (w1 : Vec F S64x32 .f32) (b1 : Vec F S1x32 .f32) (w2 : Vec F S32x2 .f32)
    (b2 : Vec F S1x2 .f32) (s : Vec F S1x64 .f32) (K : PUnit → sProp 𝕄) :
    iprop(owns (c : Thread nD τ) arg1 fullShare x0 ∗ owns (c : Thread nD τ) arg2 fullShare w1 ∗ owns (c : Thread nD τ) arg3 fullShare b1
        ∗ owns (c : Thread nD τ) arg4 fullShare w2 ∗ owns (c : Thread nD τ) arg5 fullShare b2
        ∗ (∃ d, owns (c : Thread nD τ) arg6 fullShare d) ∗ owns (c : Thread nD τ) arg7 fullShare s
        ∗ (iprop(owns (c : Thread nD τ) arg1 fullShare x0 ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (k6_pay3 (k6_pay2 s x0) w1 b1 w2 b2)
            ∗ owns (c : Thread nD τ) arg7 fullShare (k6_pay2 s x0)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, Hk⟩
  subst hf0; subst hf1; subst hf2; subst hf3; subst hf4; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover6_o _), View.canon_unit_zero (S := S1x2) hz6]
    sl_unfold_words
    simp only [View.readCov_unit_zero (S := S1x64) _ hz6, View.readAt_eq_ld, View.ld_unit_zero (S := S1x64) hz6,
      View.ld_unit_zero (S := S10000x64) hz6, View.ld_unit_zero (S := S64x32) hz6, View.ld_unit_zero (S := S1x32) hz6,
      View.ld_unit_zero (S := S32x2) hz6, View.ld_unit_zero (S := S1x2) hz6]
  iexists _; isplitr
  swap; · iexact H7
  ipureintro
  sl_unfold_words
  rw [View.read_writes_eq_canon _ _ _ (cover6_s _ _), View.canon_unit_zero (S := S1x64) hz6]
  simp only [View.readAt_eq_ld, View.ld_unit_zero (S := S1x64) hz6, View.ld_unit_zero (S := S10000x64) hz6]

end Triples

/-- The invariant between points, with the accumulator's buffer at `A`. -/
abbrev inv6 (c : Dev nD) (A : sProp 𝕄) : sProp 𝕄 :=
  iprop((A ∗ Pipeline.scopedRestBut (Ix := Unit) (Name := ℕ) (U := UR sig nD τ) (Lvl := ℕ) (Val := Elt F) spec6 c [cc6_scratch0]) ∗ (∃ r, prngReg c r))

theorem PhiA6_eq (c : Dev nD) : (Pipeline.ΦA spec6 c : sProp 𝕄) = inv6 c iprop(∃ d, owns (c : Thread nD τ) scM6_0 fullShare d) := by
  unfold Pipeline.ΦA; rw [scopedRest6_split]; simp only [scM6_0, owns_whole]; try rfl

/-- The invariant before position `n`: the accumulator at anything before the first point, afterwards at what the point before left. -/
def PhiS6 (c : Dev nD) : (n : ℕ) → n ≤ cfg6.N → sProp 𝕄
  | 0, _ => Pipeline.ΦA spec6 c
  | n + 1, hn => inv6 c (owns (c : Thread nD τ) scM6_0 fullShare (acc6 V c n hn))

/-- The proof data: the arrays as the region finds them; after the body each input's buffer at its block, the output's at the classifier's result on the accumulator; the invariant `PhiS6`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => k6_pay3 (acc6 V c t.val t.isLt) (iblk6 V c 1 t) (iblk6 V c 2 t) (iblk6 V c 3 t) (iblk6 V c 4 t)
  Φ t := PhiS6 V c t.val (Nat.le_of_lt_succ t.isLt)
  q _ := fullShare
  owed _ := 0

theorem A_eq6 (c : Dev nD) (w : Fin cfg6.W) : (dat6 V c).A w = V c (Pipeline.arrRef spec6 w) := rfl

theorem after6_5_last (c : Dev nD) (t : Fin cfg6.N) (ht : t.val = 9) : (dat6 V c).after 5 t
    = k6_pay3 (acc6 V c 9 (lt_of_eq_of_lt ht.symm t.isLt)) (iblk6 V c 1 t) (iblk6 V c 2 t) (iblk6 V c 3 t) (iblk6 V c 4 t) := by
  obtain ⟨n, hn⟩ := t
  dsimp only at ht
  subst ht
  rfl

theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t)
      ∧ (∀ d, (dat6 V c).before 4 t d = iblk6 V c 4 t) := by
  refine ⟨?_, ?_, ?_, ?_, ?_⟩ <;> intro d <;>
    exact ((dat6 V c).before_in_eq_fetched _ rfl (fun _ => rfl) (fun _ _ _ => rfl)
      (fun t => by dsimp only [dat6]; unfold Dat.blockOf iblk6; try rfl) t d).trans (by unfold Dat.fetched Dat.blockOf iblk6; dsimp only [dat6]; try rfl)

set_option maxHeartbeats 4000000 in
/-- The body at any point: its position says which of the three cases it is in and that case's triple applies; the invariant hands over the accumulator and takes it back, the rest passes through. -/
theorem sound_body6 (c : Dev nD) (t : Fin cfg6.N) :
    iprop(PhiS6 V c t.val (Nat.le_of_lt t.isLt) ∗ (dat6 V c).owesAt () t.castSucc
      ∗ (∃ d, owns (c : Thread nD τ) (st6_0 t) fullShare ((dat6 V c).before 0 t d)) ∗ (∃ d, owns (c : Thread nD τ) (st6_1 t) fullShare ((dat6 V c).before 1 t d))
      ∗ (∃ d, owns (c : Thread nD τ) (st6_2 t) fullShare ((dat6 V c).before 2 t d)) ∗ (∃ d, owns (c : Thread nD τ) (st6_3 t) fullShare ((dat6 V c).before 3 t d))
      ∗ (∃ d, owns (c : Thread nD τ) (st6_4 t) fullShare ((dat6 V c).before 4 t d)) ∗ (∃ d, owns (c : Thread nD τ) (st6_5 t) fullShare ((dat6 V c).before 5 t d)))
    ⊢ wp frame (wpE (defs₀ (F := F)) Variants.none c none) Set.univ (bodyAt6 t) fun _ =>
      iprop(inv6 c (owns (c : Thread nD τ) scM6_0 fullShare (acc6 V c t.val t.isLt)) ∗ (dat6 V c).owesAt () t.castSucc
        ∗ owns (c : Thread nD τ) (st6_0 t) fullShare (iblk6 V c 0 t) ∗ owns (c : Thread nD τ) (st6_1 t) fullShare (iblk6 V c 1 t)
        ∗ owns (c : Thread nD τ) (st6_2 t) fullShare (iblk6 V c 2 t) ∗ owns (c : Thread nD τ) (st6_3 t) fullShare (iblk6 V c 3 t)
        ∗ owns (c : Thread nD τ) (st6_4 t) fullShare (iblk6 V c 4 t) ∗ (dat6 V c).leavesExact 5 t) := by
  obtain ⟨e0, e1, e2, e3, e4⟩ := before6 V c t
  simp only [e0, e1, e2, e3, e4]
  unfold bodyAt6
  obtain ⟨_ | n, hn⟩ := t
  · have hc0 : cond6_0 (grid6.coords ⟨0, hn⟩) := (hcond6_0 _).mpr rfl
    have hc1 : ¬cond6_1 (grid6.coords ⟨0, hn⟩) := fun h => absurd ((hcond6_1 _).mp h) (by decide : (0 : ℕ) ≠ 9)
    rw [Dat.leavesExact_idle (dat6 V c) 5 _ (idleAt6_5 _ hc1) (noFlush6_5 _ hc1)]
    dsimp only
    rw [PhiS6, acc6_zero, PhiA6_eq]
    iintro ⟨⟨⟨HS, Hrest⟩, Hg⟩, Ho, ⟨%d0, H0⟩, ⟨%d1, H1⟩, ⟨%d2, H2⟩, ⟨%d3, H3⟩, ⟨%d4, H4⟩, H5⟩
    iapply (sound_kernel6_first c Set.univ _ _ _ _ _ _ _ _ _ _ _ _ _ _ _ (iblk6 V c 0 ⟨0, hn⟩) hc0 hc1 _)
    iframe H0 HS
    iintro ⟨H0, HS⟩
    iframe
    isplitl [HS Hrest]
    · isplitl [HS]; · iexact HS
      iexact Hrest
    iexact Hg
  · have hc0 : ¬cond6_0 (grid6.coords ⟨n + 1, hn⟩) := fun h => Nat.succ_ne_zero n ((hcond6_0 _).mp h)
    by_cases h9 : n + 1 = 9
    · have hc1 : cond6_1 (grid6.coords ⟨n + 1, hn⟩) := (hcond6_1 _).mpr h9
      rw [show (dat6 V c).leavesExact 5 ⟨n + 1, hn⟩ = owns (c : Thread nD τ) (st6_5 ⟨n + 1, hn⟩) fullShare
          (k6_pay3 (acc6 V c (n + 1) hn) (iblk6 V c 1 ⟨n + 1, hn⟩) (iblk6 V c 2 ⟨n + 1, hn⟩) (iblk6 V c 3 ⟨n + 1, hn⟩) (iblk6 V c 4 ⟨n + 1, hn⟩)) from by
        unfold Dat.leavesExact; rw [liveAt6_5 _ hc1]; rfl]
      dsimp only
      rw [PhiS6, acc6_succ]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (sound_kernel6_last c Set.univ _ _ _ _ _ _ _ _ _ _ _ _ _ _ _ (iblk6 V c 0 ⟨n + 1, hn⟩) hc0 hc1 (iblk6 V c 1 ⟨n + 1, hn⟩) (iblk6 V c 2 ⟨n + 1, hn⟩)
        (iblk6 V c 3 ⟨n + 1, hn⟩) (iblk6 V c 4 ⟨n + 1, hn⟩) (acc6 V c n (Nat.lt_of_succ_lt hn)) _)
      iframe H0 H1 H2 H3 H4 HS
      isplitl [H5]; · iexists _; iexact H5
      iintro ⟨H0, H1, H2, H3, H4, H5, HS⟩
      iframe
      isplitl [HS Hrest]
      · isplitl [HS]; · iexact HS
        iexact Hrest
      iexact Hg
    · have hc1 : ¬cond6_1 (grid6.coords ⟨n + 1, hn⟩) := fun h => h9 ((hcond6_1 _).mp h)
      rw [Dat.leavesExact_idle (dat6 V c) 5 _ (idleAt6_5 _ hc1) (noFlush6_5 _ hc1)]
      dsimp only
      rw [PhiS6, acc6_succ]
      iintro ⟨⟨⟨HS, Hrest⟩, Hg⟩, Ho, ⟨%d0, H0⟩, ⟨%d1, H1⟩, ⟨%d2, H2⟩, ⟨%d3, H3⟩, ⟨%d4, H4⟩, H5⟩
      iapply (sound_kernel6_mid c Set.univ _ _ _ _ _ _ _ _ _ _ _ _ _ _ _ (iblk6 V c 0 ⟨n + 1, hn⟩) hc0 hc1 (acc6 V c n (Nat.lt_of_succ_lt hn)) _)
      iframe H0 HS
      iintro ⟨H0, HS⟩
      iframe
      isplitl [HS Hrest]
      · isplitl [HS]; · iexact HS
        iexact Hrest
      iexact Hg

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := .rfl

/-- After the last point the accumulator's contents are forgotten. -/
theorem hout6 (c : Dev nD) : (dat6 V c).Φ (Fin.last cfg6.N) ⊢ (Pipeline.ΦA spec6 c : sProp 𝕄) := by
  rw [show (dat6 V c).Φ (Fin.last cfg6.N) = inv6 c (owns (c : Thread nD τ) scM6_0 fullShare (acc6 V c 9 (lt_of_lt_of_eq (by decide) N_6.symm))) from rfl, PhiA6_eq]
  iintro ⟨⟨HS, Hrest⟩, Hg⟩
  isplitl [HS Hrest]
  · isplitl [HS]
    · iexists _; iexact HS
    iexact Hrest
  iexact Hg

end Cert.KernelIdeal.Fr

end
-- ==== Proof.KI.Fold6.lean ====
import proofs.«169203_j82712480186688_1_alg».proof.Proof.KI.Fold
import proofs.«169203_j82712480186688_1_alg».proof.Proof.KI.Reg6

noncomputable section

namespace Cert.KernelIdeal.Fr

open Cert.KernelIdeal Cert.KernelIdeal.Gen
open Idealize.ShloMosaic Idealize.ShloMosaic.TcCoe

variable {F : FTy → Type} [FloatOps F] [Named F]

variable (m : (ℓ : Loc nD τ sig) → Buf (Elt F) ℓ)

def X6 (c : Dev nD) : Buf (Elt F) ((c : Thread nD τ).loc main_v79) := (dat6 (atTc (U11 m)) c).arrAt 5 cfg6.N
abbrev U12 (c : Dev nD) : Valuation τ sig (Elt F) := Function.update (U11 m c) main_v79 (X6 m c)

theorem U12_of (c : Dev nD) (r : Ref sig .tc) (h : r ≠ main_v79) : U12 m c r = U11 m c r :=
  Function.update_of_ne (StableHlo.devRef_ne_of_ne h) _ _

end Cert.KernelIdeal.Fr

end
-- ==== Proof.KI.Run.lean ====
import proofs.«169203_j82712480186688_1_alg».proof.Proof.KI.Fold6
import proofs.«169203_j82712480186688_1_alg».proof.Proof.LibRegion
import Idealize.ShloMosaic.Lib.Pipeline.Frame
import Idealize.ShloMosaic.Lib.Pipeline.Regions

noncomputable section

namespace Cert.KernelIdeal.Fr

open Cert.KernelIdeal Cert.KernelIdeal.Gen
open Idealize.ShloMosaic Idealize.ShloMosaic.TcCoe
open Idealize.SL Idealize.SL.BI Idealize.SL.Sem
open Idealize.SL.BI.BIBase Idealize.SL.BI.Laws
open Idealize.ShloMosaic.Pipeline (Dat)

variable {F : FTy → Type} [FloatOps F] [Named F]

variable (m : (ℓ : Loc nD τ sig) → Buf (Elt F) ℓ) (ρ : Dev nD → PrngReg)

/-- Every region's proof data, each at the contents its region is entered from. -/
def rdat : (p : Fin 7) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U7 m)) c
  | ⟨5, _⟩ => fun c => dat5 (atTc (U9 m)) c
  | ⟨6, _⟩ => fun c => dat6 (atTc (U11 m)) c

/-- @main's twelve items: a host segment per stretch of host operations, a region segment per kernel, each from the fold's contents before it to those after it. -/
abbrev rsegs : List (Pipeline.Seg (pcfgs (F := F)) adm (rdat m) () defs₀ Variants.none (fun _ => ∅) (fun _ _ => 0)) :=
  [ .host (hostOf cfgs defs₀ hostOps0 hostOps0_sub hostOps0_fresh (U0 m)),
    .region (regOf cfgs (rdat m) defs₀ (p := 0) (U1 m) (U2 m) 2 launch0 (body_obligation0 _) (A_eq0 _) (fun _ => .rfl) (fun _ => .rfl)),
    .host (hostOf cfgs defs₀ hostOps1 hostOps1_sub hostOps1_fresh (U2 m)),
    .region (regOf cfgs (rdat m) defs₀ (p := 1) (U3 m) (U4 m) 2 launch1 (body_obligation1 _) (A_eq1 _) (fun _ => .rfl) (fun _ => .rfl)),
    .region (regOf cfgs (rdat m) defs₀ (p := 2) (U4 m) (U5 m) 2 launch2 (body_obligation2 _) (A_eq2 _) (fun _ => .rfl) (fun _ => .rfl)),
    .host (hostOf cfgs defs₀ hostOps3 hostOps3_sub hostOps3_fresh (U5 m)),
    .region (regOf cfgs (rdat m) defs₀ (p := 3) (U6 m) (U7 m) 2 launch3 (body_obligation3 _) (A_eq3 _) (fun _ => .rfl) (fun _ => .rfl)),
    .region (regOf cfgs (rdat m) defs₀ (p := 4) (U7 m) (U8 m) 2 launch4 (body_obligation4 _) (A_eq4 _) (fun _ => .rfl) (fun _ => .rfl)),
    .host (hostOf cfgs defs₀ hostOps5 hostOps5_sub hostOps5_fresh (U8 m)),
    .region (regOf cfgs (rdat m) defs₀ (p := 5) (U9 m) (U10 m) 2 launch5 (body_obligation5 _) (A_eq5 _) (fun _ => .rfl) (fun _ => .rfl)),
    .host (hostOf cfgs defs₀ hostOps6 hostOps6_sub hostOps6_fresh (U10 m)),
    .region (regOf cfgs (rdat m) defs₀ (p := 6) (U11 m) (U12 m) 5 launch6 (body_obligation6 _) (A_eq6 _) (hin6 _) (hout6 _)) ]

set_option backward.isDefEq.respectTransparency.types false in
/-- From any memory with zero counters every weakly fair execution of @main terminates without a fault, each core's every unscoped buffer at the fold's last contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = U12 m c b) :=
  run_segs cfgs (rdat m) defs₀ cellOf_inj m ρ main (rsegs m)
    (fun c => by rw [main_chain c, Pipeline.Seg.run_eq_chain]; rfl)
    (by simp only [rsegs, Pipeline.Seg.pipes_host, Pipeline.Seg.pipes_region, Pipeline.Seg.pipes_nil]; decide)
    (U12 m)
    ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc'⟩

abbrev args : List (Ref sig .tc) :=
  [main_arg0, main_arg1, main_arg2, main_arg3, main_arg4, main_arg5, main_arg6, main_arg7, main_arg8, main_arg9, main_arg10, main_arg11]

/-- No host stretch writes an argument and no region's output array is one, so a memory that holds the fold's last contents holds every argument as launched. -/
theorem kept (c : Dev nD) {s : MemSt nD τ sig (Elt F)} (h : ∀ b ∈ Pipeline.ucRefs τ sig, s.mem ((c : Thread nD τ).1, b) = U12 m c b) :
    args.Forall fun a => s.mem ((c.tc : Thread nD τ).loc a) = m ((c.tc : Thread nD τ).loc a) := by
  refine List.forall_iff_forall_mem.mpr fun a ha => ?_
  obtain ⟨hs, h0, h1, h3, h5, h6, o29, o44, o45, o60, o61, o76, o79⟩ := (by decide : ∀ a ∈ args,
    ¬ (Proc.devRef .tc a : DevRef τ sig).isScoped ∧ a ∉ hostOps0_W ∧ a ∉ hostOps1_W ∧ a ∉ hostOps3_W ∧ a ∉ hostOps5_W ∧ a ∉ hostOps6_W
      ∧ a ≠ main_v29 ∧ a ≠ main_v44 ∧ a ≠ main_v45 ∧ a ≠ main_v60 ∧ a ≠ main_v61 ∧ a ≠ main_v76 ∧ a ≠ main_v79) a ha
  exact (h _ (mem_uc a hs)).trans <| (U12_of m c a o79).trans <| (U11_of m c a h6).trans <| (U10_of m c a o76).trans <|
    (U9_of m c a h5).trans <| (U8_of m c a o61).trans <| (U7_of m c a o60).trans <| (U6_of m c a h3).trans <|
    (U5_of m c a o45).trans <| (U4_of m c a o44).trans <| (U3_of m c a h1).trans <| (U2_of m c a o29).trans <| U1_of m c a h0

/-- Such a memory holds the program's result array at `X6`. -/
theorem result_at (c : Dev nD) {s : MemSt nD τ sig (Elt F)} (h : ∀ b ∈ Pipeline.ucRefs τ sig, s.mem ((c : Thread nD τ).1, b) = U12 m c b) :
    s.mem ((c.tc : Thread nD τ).loc main_v79) = X6 m c :=
  (h _ (mem_uc main_v79 (by decide))).trans (Function.update_self (β := fun b : DevRef τ sig => Buf (Elt F) ((c : Thread nD τ).1, b)) _ _ _)

end Cert.KernelIdeal.Fr

end
-- ==== Proof.RefRun.lean ====
import proofs.«169203_j82712480186688_1_alg».proof.Proof.Gen.ReferenceIdeal.Run
import proofs.«169203_j82712480186688_1_alg».proof.Proof.Gen.ReferenceIdeal.Read
-- ==== Proof.KI.ValLin0.lean ====
import proofs.«169203_j82712480186688_1_alg».proof.Proof.KI.Reg0
import proofs.«169203_j82712480186688_1_alg».proof.Proof.RefRun
import Idealize.ShloMosaic.Lib.StackMember

noncomputable section

namespace Cert.KernelIdeal.Val

open Cert.KernelIdeal Cert.KernelIdeal.Gen
open Idealize.ShloMosaic Idealize.ShloMosaic.TcCoe Idealize.SL.Sem
open Idealize.ShloMosaic.ValueIdx Idealize.ShloMosaic.StackMember

local notation "nK0" => (64 : ℕ)
local notation "nOut0" => (128 : ℕ)
local notation "nBlk0" => (5000 : ℕ)
local notation "xRef0" => main_arg0
local notation "wRef0" => main_arg2

variable (V : (c : Dev nD) → (b : Ref sig .tc) → Buf (Elt Ideal) ((c : Thread nD τ).loc b))

abbrev xArr0 (c : Dev nD) : FVec Ideal S100000x64 .f32 := V c xRef0
abbrev wArr0 (c : Dev nD) : FVec Ideal S64x128 .f32 := V c wRef0

-- Over the extended reals the block product is the plain matrix product.
theorem pay0_apply (x : Vec Ideal S5000x64 .f32) (w : Vec Ideal S64x128 .f32) (r : Fin nBlk0) (j : Fin nOut0) :
    k0_pay1 x w (ix2 r j) = ∑ k : Fin nK0, x (ix2 r k) * w (ix2 k j) := by
  unfold k0_pay1
  simp only [matmul_zero_eq_dotGeneral, shapeCast_self]
  exact dotGeneral_plain_apply none _ _ r j

theorem ref0_eq (x : FVec Ideal S100000x64 .f32) (w : FVec Ideal S64x128 .f32) (i : S100000x128.Idx) :
    Host.dotGeneral (F := Ideal) Cert.ReferenceIdeal.dot_S100000x64_S64x128_S100000x128_1_0_0_1_n_n none x w i = ∑ k : Fin nK0, x (ix2 (i 0) k) * w (ix2 k (i 1)) := by
  obtain ⟨a, b, rfl⟩ : ∃ a b, i = ix2 a b := ⟨i 0, i 1, eq_ix2 i⟩
  exact dotGeneral_plain_apply none x w a b

theorem hz0 : (![0, 0] : Fin 2 → Nat) = fun _ => 0 := funext fun a => by fin_cases a <;> rfl

-- At point t the left and the output blocks are row block t of their arrays; the right block is the whole array.
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- Point t's output block is block t of the product of the two whole arrays.
theorem flushed_eq0 (c : Dev nD) (t : Fin cfg0.N) :
    (Fr.dat0 V c).flushed 2 t = ((cfg0.win 2).blk t).view.read (Elt Ideal)
      (Host.dotGeneral (F := Ideal) Cert.ReferenceIdeal.dot_S100000x64_S64x128_S100000x128_1_0_0_1_n_n none (xArr0 V c) (wArr0 V c)) := by
  show (cfg0.win 2).cut (grid0.coords t) ((Fr.dat0 V c).after 2 t) = _
  rw [Fr.after0_2, Fr.out0_2, View.canon_unit_zero hz0, View.ld_unit_zero hz0, View.ld_unit_zero hz0]
  funext y
  obtain ⟨r, j, rfl⟩ : ∃ (r : Fin nBlk0) (j : Fin nOut0), y = ix2 r j := ⟨y 0, y 1, eq_ix2 y⟩
  obtain ⟨a0, a1, b0, b1, o0, o1⟩ := idx_facts0 t
  refine (pay0_apply _ _ r j).trans (Eq.trans (Finset.sum_congr rfl fun k _ => ?_) (ref0_eq _ _ _).symm)
  exact congrArg₂ (· * ·)
    (congrArg (V c xRef0) (Shape.idx_ext₂
      (by show win0_0.index t (0 : Fin 2) * nBlk0 + 1 * r.val = win0_2.index t (0 : Fin 2) * nBlk0 + 1 * r.val; omega)
      (by show win0_0.index t (1 : Fin 2) * nK0 + 1 * k.val = k.val; omega)))
    (congrArg (V c wRef0) (Shape.idx_ext₂
      (by show win0_1.index t (0 : Fin 2) * nK0 + 1 * k.val = k.val; omega)
      (by show win0_1.index t (1 : Fin 2) * nOut0 + 1 * j.val = win0_2.index t (1 : Fin 2) * nOut0 + 1 * j.val; omega)))

-- Row i lies in the block of point i / nBlk0, at row i % nBlk0 of it.
theorem cover0 (i : S100000x128.Idx) :
    ∃ t : Fin cfg0.N, (cfg0.win 2).flush t = true ∧ i ∈ ((cfg0.win 2).blk t).view.set := by
  have hi : (i 0).val < 100000 := (i 0).isLt
  let t : Fin cfg0.N := ⟨(i 0).val / nBlk0, lt_of_lt_of_eq (by omega) N_0.symm⟩
  have ht : t.val = (i 0).val / nBlk0 := rfl
  obtain ⟨-, -, -, -, o0, o1⟩ := idx_facts0 t
  have e : ((cfg0.win 2).blk t).view.emb (ix2 ⟨(i 0).val % nBlk0, Nat.mod_lt _ (by decide)⟩ (i 1)) = i :=
    Shape.idx_ext₂
      (by show win0_2.index t (0 : Fin 2) * nBlk0 + 1 * ((i 0).val % nBlk0) = (i 0).val; omega)
      (by show win0_2.index t (1 : Fin 2) * nOut0 + 1 * (i 1).val = (i 1).val; omega)
  exact ⟨t, flush0_2 t, e ▸ View.emb_mem_set _ _⟩

theorem lin0 (c : Dev nD) : ((Fr.dat0 (F := Ideal) V c).arrAt 2 cfg0.N : FVec Ideal S100000x128 .f32) = Host.dotGeneral (F := Ideal) Cert.ReferenceIdeal.dot_S100000x64_S64x128_S100000x128_1_0_0_1_n_n none (xArr0 V c) (wArr0 V c) :=
  (Fr.dat0 V c).arrAt_eq_of_cover 2 _ (fun t _ => flushed_eq0 V c t) cover0

end Cert.KernelIdeal.Val

end
-- ==== Proof.KI.ValLin2.lean ====
import proofs.«169203_j82712480186688_1_alg».proof.Proof.KI.Reg2
import proofs.«169203_j82712480186688_1_alg».proof.Proof.RefRun
import Idealize.ShloMosaic.Lib.StackMember

noncomputable section

namespace Cert.KernelIdeal.Val

open Cert.KernelIdeal Cert.KernelIdeal.Gen
open Idealize.ShloMosaic Idealize.ShloMosaic.TcCoe Idealize.SL.Sem
open Idealize.ShloMosaic.ValueIdx Idealize.ShloMosaic.StackMember

local notation "nK2" => (128 : ℕ)
local notation "nOut2" => (128 : ℕ)
local notation "nBlk2" => (5000 : ℕ)
local notation "xRef2" => main_v44
local notation "wRef2" => main_arg4

variable (V : (c : Dev nD) → (b : Ref sig .tc) → Buf (Elt Ideal) ((c : Thread nD τ).loc b))

abbrev xArr2 (c : Dev nD) : FVec Ideal S100000x128 .f32 := V c xRef2
abbrev wArr2 (c : Dev nD) : FVec Ideal S128x128 .f32 := V c wRef2

-- Over the extended reals the block product is the plain matrix product.
theorem pay2_apply (x : Vec Ideal S5000x128 .f32) (w : Vec Ideal S128x128 .f32) (r : Fin nBlk2) (j : Fin nOut2) :
    k2_pay1 x w (ix2 r j) = ∑ k : Fin nK2, x (ix2 r k) * w (ix2 k j) := by
  unfold k2_pay1
  simp only [matmul_zero_eq_dotGeneral, shapeCast_self]
  exact dotGeneral_plain_apply none _ _ r j

theorem ref2_eq (x : FVec Ideal S100000x128 .f32) (w : FVec Ideal S128x128 .f32) (i : S100000x128.Idx) :
    Host.dotGeneral (F := Ideal) Cert.ReferenceIdeal.dot_S100000x128_S128x128_S100000x128_1_0_0_1_n_n none x w i = ∑ k : Fin nK2, x (ix2 (i 0) k) * w (ix2 k (i 1)) := by
  obtain ⟨a, b, rfl⟩ : ∃ a b, i = ix2 a b := ⟨i 0, i 1, eq_ix2 i⟩
  exact dotGeneral_plain_apply none x w a b

theorem hz2 : (![0, 0] : Fin 2 → Nat) = fun _ => 0 := funext fun a => by fin_cases a <;> rfl

-- At point t the left and the output blocks are row block t of their arrays; the right block is the whole array.
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- Point t's output block is block t of the product of the two whole arrays.
theorem flushed_eq2 (c : Dev nD) (t : Fin cfg2.N) :
    (Fr.dat2 V c).flushed 2 t = ((cfg2.win 2).blk t).view.read (Elt Ideal)
      (Host.dotGeneral (F := Ideal) Cert.ReferenceIdeal.dot_S100000x128_S128x128_S100000x128_1_0_0_1_n_n none (xArr2 V c) (wArr2 V c)) := by
  show (cfg2.win 2).cut (grid2.coords t) ((Fr.dat2 V c).after 2 t) = _
  rw [Fr.after2_2, Fr.out2_2, View.canon_unit_zero hz2, View.ld_unit_zero hz2, View.ld_unit_zero hz2]
  funext y
  obtain ⟨r, j, rfl⟩ : ∃ (r : Fin nBlk2) (j : Fin nOut2), y = ix2 r j := ⟨y 0, y 1, eq_ix2 y⟩
  obtain ⟨a0, a1, b0, b1, o0, o1⟩ := idx_facts2 t
  refine (pay2_apply _ _ r j).trans (Eq.trans (Finset.sum_congr rfl fun k _ => ?_) (ref2_eq _ _ _).symm)
  exact congrArg₂ (· * ·)
    (congrArg (V c xRef2) (Shape.idx_ext₂
      (by show win2_0.index t (0 : Fin 2) * nBlk2 + 1 * r.val = win2_2.index t (0 : Fin 2) * nBlk2 + 1 * r.val; omega)
      (by show win2_0.index t (1 : Fin 2) * nK2 + 1 * k.val = k.val; omega)))
    (congrArg (V c wRef2) (Shape.idx_ext₂
      (by show win2_1.index t (0 : Fin 2) * nK2 + 1 * k.val = k.val; omega)
      (by show win2_1.index t (1 : Fin 2) * nOut2 + 1 * j.val = win2_2.index t (1 : Fin 2) * nOut2 + 1 * j.val; omega)))

-- Row i lies in the block of point i / nBlk2, at row i % nBlk2 of it.
theorem cover2 (i : S100000x128.Idx) :
    ∃ t : Fin cfg2.N, (cfg2.win 2).flush t = true ∧ i ∈ ((cfg2.win 2).blk t).view.set := by
  have hi : (i 0).val < 100000 := (i 0).isLt
  let t : Fin cfg2.N := ⟨(i 0).val / nBlk2, lt_of_lt_of_eq (by omega) N_2.symm⟩
  have ht : t.val = (i 0).val / nBlk2 := rfl
  obtain ⟨-, -, -, -, o0, o1⟩ := idx_facts2 t
  have e : ((cfg2.win 2).blk t).view.emb (ix2 ⟨(i 0).val % nBlk2, Nat.mod_lt _ (by decide)⟩ (i 1)) = i :=
    Shape.idx_ext₂
      (by show win2_2.index t (0 : Fin 2) * nBlk2 + 1 * ((i 0).val % nBlk2) = (i 0).val; omega)
      (by show win2_2.index t (1 : Fin 2) * nOut2 + 1 * (i 1).val = (i 1).val; omega)
  exact ⟨t, flush2_2 t, e ▸ View.emb_mem_set _ _⟩

theorem lin2 (c : Dev nD) : ((Fr.dat2 (F := Ideal) V c).arrAt 2 cfg2.N : FVec Ideal S100000x128 .f32) = Host.dotGeneral (F := Ideal) Cert.ReferenceIdeal.dot_S100000x128_S128x128_S100000x128_1_0_0_1_n_n none (xArr2 V c) (wArr2 V c) :=
  (Fr.dat2 V c).arrAt_eq_of_cover 2 _ (fun t _ => flushed_eq2 V c t) cover2

end Cert.KernelIdeal.Val

end
-- ==== Proof.KI.ValLin4.lean ====
import proofs.«169203_j82712480186688_1_alg».proof.Proof.KI.Reg4
import proofs.«169203_j82712480186688_1_alg».proof.Proof.RefRun
import Idealize.ShloMosaic.Lib.StackMember

noncomputable section

namespace Cert.KernelIdeal.Val

open Cert.KernelIdeal Cert.KernelIdeal.Gen
open Idealize.ShloMosaic Idealize.ShloMosaic.TcCoe Idealize.SL.Sem
open Idealize.ShloMosaic.ValueIdx Idealize.ShloMosaic.StackMember

local notation "nK4" => (128 : ℕ)
local notation "nOut4" => (64 : ℕ)
local notation "nBlk4" => (5000 : ℕ)
local notation "xRef4" => main_v60
local notation "wRef4" => main_arg6

variable (V : (c : Dev nD) → (b : Ref sig .tc) → Buf (Elt Ideal) ((c : Thread nD τ).loc b))

abbrev xArr4 (c : Dev nD) : FVec Ideal S100000x128 .f32 := V c xRef4
abbrev wArr4 (c : Dev nD) : FVec Ideal S128x64 .f32 := V c wRef4

-- Over the extended reals the block product is the plain matrix product.
theorem pay4_apply (x : Vec Ideal S5000x128 .f32) (w : Vec Ideal S128x64 .f32) (r : Fin nBlk4) (j : Fin nOut4) :
    k4_pay1 x w (ix2 r j) = ∑ k : Fin nK4, x (ix2 r k) * w (ix2 k j) := by
  unfold k4_pay1
  simp only [matmul_zero_eq_dotGeneral, shapeCast_self]
  exact dotGeneral_plain_apply none _ _ r j

theorem ref4_eq (x : FVec Ideal S100000x128 .f32) (w : FVec Ideal S128x64 .f32) (i : S100000x64.Idx) :
    Host.dotGeneral (F := Ideal) Cert.ReferenceIdeal.dot_S100000x128_S128x64_S100000x64_1_0_0_1_n_n none x w i = ∑ k : Fin nK4, x (ix2 (i 0) k) * w (ix2 k (i 1)) := by
  obtain ⟨a, b, rfl⟩ : ∃ a b, i = ix2 a b := ⟨i 0, i 1, eq_ix2 i⟩
  exact dotGeneral_plain_apply none x w a b

theorem hz4 : (![0, 0] : Fin 2 → Nat) = fun _ => 0 := funext fun a => by fin_cases a <;> rfl

-- At point t the left and the output blocks are row block t of their arrays; the right block is the whole array.
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

-- Point t's output block is block t of the product of the two whole arrays.
theorem flushed_eq4 (c : Dev nD) (t : Fin cfg4.N) :
    (Fr.dat4 V c).flushed 2 t = ((cfg4.win 2).blk t).view.read (Elt Ideal)
      (Host.dotGeneral (F := Ideal) Cert.ReferenceIdeal.dot_S100000x128_S128x64_S100000x64_1_0_0_1_n_n none (xArr4 V c) (wArr4 V c)) := by
  show (cfg4.win 2).cut (grid4.coords t) ((Fr.dat4 V c).after 2 t) = _
  rw [Fr.after4_2, Fr.out4_2, View.canon_unit_zero hz4, View.ld_unit_zero hz4, View.ld_unit_zero hz4]
  funext y
  obtain ⟨r, j, rfl⟩ : ∃ (r : Fin nBlk4) (j : Fin nOut4), y = ix2 r j := ⟨y 0, y 1, eq_ix2 y⟩
  obtain ⟨a0, a1, b0, b1, o0, o1⟩ := idx_facts4 t
  refine (pay4_apply _ _ r j).trans (Eq.trans (Finset.sum_congr rfl fun k _ => ?_) (ref4_eq _ _ _).symm)
  exact congrArg₂ (· * ·)
    (congrArg (V c xRef4) (Shape.idx_ext₂
      (by show win4_0.index t (0 : Fin 2) * nBlk4 + 1 * r.val = win4_2.index t (0 : Fin 2) * nBlk4 + 1 * r.val; omega)
      (by show win4_0.index t (1 : Fin 2) * nK4 + 1 * k.val = k.val; omega)))
    (congrArg (V c wRef4) (Shape.idx_ext₂
      (by show win4_1.index t (0 : Fin 2) * nK4 + 1 * k.val = k.val; omega)
      (by show win4_1.index t (1 : Fin 2) * nOut4 + 1 * j.val = win4_2.index t (1 : Fin 2) * nOut4 + 1 * j.val; omega)))

-- Row i lies in the block of point i / nBlk4, at row i % nBlk4 of it.
theorem cover4 (i : S100000x64.Idx) :
    ∃ t : Fin cfg4.N, (cfg4.win 2).flush t = true ∧ i ∈ ((cfg4.win 2).blk t).view.set := by
  have hi : (i 0).val < 100000 := (i 0).isLt
  let t : Fin cfg4.N := ⟨(i 0).val / nBlk4, lt_of_lt_of_eq (by omega) N_4.symm⟩
  have ht : t.val = (i 0).val / nBlk4 := rfl
  obtain ⟨-, -, -, -, o0, o1⟩ := idx_facts4 t
  have e : ((cfg4.win 2).blk t).view.emb (ix2 ⟨(i 0).val % nBlk4, Nat.mod_lt _ (by decide)⟩ (i 1)) = i :=
    Shape.idx_ext₂
      (by show win4_2.index t (0 : Fin 2) * nBlk4 + 1 * ((i 0).val % nBlk4) = (i 0).val; omega)
      (by show win4_2.index t (1 : Fin 2) * nOut4 + 1 * (i 1).val = (i 1).val; omega)
  exact ⟨t, flush4_2 t, e ▸ View.emb_mem_set _ _⟩

theorem lin4 (c : Dev nD) : ((Fr.dat4 (F := Ideal) V c).arrAt 2 cfg4.N : FVec Ideal S100000x64 .f32) = Host.dotGeneral (F := Ideal) Cert.ReferenceIdeal.dot_S100000x128_S128x64_S100000x64_1_0_0_1_n_n none (xArr4 V c) (wArr4 V c) :=
  (Fr.dat4 V c).arrAt_eq_of_cover 2 _ (fun t _ => flushed_eq4 V c t) cover4

end Cert.KernelIdeal.Val

end
-- ==== Proof.LibRowBias.lean ====
import Idealize.ShloMosaic.Lib.Pipeline.Value
import Idealize.ShloMosaic.Lib.ValueIdx

namespace Cert.Lib

open Idealize.ShloMosaic Idealize.ShloMosaic.ValueIdx

/-- A vector broadcast to one row, and that row to all rows, reads at an index the vector at the index's column. -/
theorem rowBias_apply {α : Type} {n k : ℕ} (b : (⟨1, ![k]⟩ : Shape).Idx → α)
    (h1 : (⟨1, ![k]⟩ : Shape).BroadcastsInDim ⟨2, ![1, k]⟩ ![1])
    (h2 : (⟨2, ![1, k]⟩ : Shape).BroadcastsInDim ⟨2, ![n, k]⟩ ![0, 1]) (i : (⟨2, ![n, k]⟩ : Shape).Idx) :
    broadcastInDim ⟨2, ![n, k]⟩ ![0, 1] h2 (broadcastInDim ⟨2, ![1, k]⟩ ![1] h1 b) i = b (ix1 (i 1)) := by
  have hi : (i 1).val < k := (i 1).isLt
  have hk : (i 1).val = if k = 1 then 0 else (i 1).val := by split <;> omega
  exact (broadcastInDim_apply (s := ⟨2, ![1, k]⟩) (t := ⟨2, ![n, k]⟩) ![0, 1] h2 _ i (ix2 (n1 := k) (0 : Fin 1) (i 1))
      fun a => match a with | ⟨0, _⟩ => rfl | ⟨1, _⟩ => by exact hk).trans
    (broadcastInDim_apply (s := ⟨1, ![k]⟩) (t := ⟨2, ![1, k]⟩) ![1] h1 b _ (ix1 (n := k) (i 1))
      fun a => match a with | ⟨0, _⟩ => by exact hk)

end Cert.Lib
-- ==== Proof.KI.ValBr1.lean ====
import proofs.«169203_j82712480186688_1_alg».proof.Proof.KI.Reg1
import proofs.«169203_j82712480186688_1_alg».proof.Proof.RefRun
import proofs.«169203_j82712480186688_1_alg».proof.Proof.LibRowBias
import Idealize.ShloMosaic.Lib.ValueLayout

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := by decide

/-- The body at an index: the block's element plus the one row's at that column, cut below at zero. -/
theorem pay1_apply (x : Vec Ideal S5000x128 .f32) (w : Vec Ideal S1x128 .f32) (y : S5000x128.Idx) :
    k1_pay1 x w y = max (x y + w (ix2 (0 : Fin 1) (y 1))) (Ideal.ofBits .f32 0x00000000#32) := by
  show max (shapeCast _ x _ y + broadcastTo _ (shapeCast _ w _) _ y) _ = _
  rw [shapeCast_self, shapeCast_self, broadcastTo_apply w _ y (ix2 (0 : Fin 1) (y 1))
    (fun a => match a with | ⟨0, _⟩ => rfl | ⟨1, _⟩ => rfl)]
  rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r is row r % 5000 of block r / 5000, so the blocks cover the array. -/
theorem cover1 (i : S100000x128.Idx) :
    ∃ t : Fin cfg1.N, (cfg1.win 2).flush t = true ∧ i ∈ ((cfg1.win 2).blk t).view.set := by
  have hi : (i 0).val < 100000 := (i 0).isLt
  obtain ⟨t, ht⟩ : ∃ t : Fin cfg1.N, t.val = (i 0).val / 5000 :=
    ⟨Fin.cast N_1.symm ⟨(i 0).val / 5000, by omega⟩, rfl⟩
  obtain ⟨-, -, -, -, e4, e5⟩ := idx_facts1 t
  refine ⟨t, flush1_2 t, ?_⟩
  rw [show i = ((cfg1.win 2).blk t).view.emb (ix2 ⟨(i 0).val % 5000, Nat.mod_lt _ (by decide)⟩ (i 1)) from
    Shape.idx_ext₂ (by show (i 0).val = win1_2.index t 0 * 5000 + 1 * ((i 0).val % 5000); omega)
      (by show (i 1).val = win1_2.index t 1 * _ + 1 * (i 1).val; rw [e5]; omega)]
  exact View.emb_mem_set _ _

theorem br1 (c : Dev nD) (b : Vec Ideal S128 .f32)
    (hb : (V c main_v43 : Vec Ideal S1x128 .f32) = shapeCast S1x128 b shapeCasts_S128_S1x128) :
    ((Fr.dat1 (F := Ideal) V c).arrAt 2 cfg1.N : Vec Ideal S100000x128 .f32)
      = maximumf (addf (V c main_v42) (broadcastInDim S100000x128 ![0, 1] Cert.ReferenceIdeal.Gen.bcast_S1x128_S100000x128_0_1
            (broadcastInDim S1x128 ![1] Cert.ReferenceIdeal.Gen.bcast_S128_S1x128_1 b)))
          (broadcastInDim S100000x128 ![] Cert.ReferenceIdeal.Gen.bcast_S_S100000x128
            (constant (F := Ideal) S_ .f32 0x00000000#32)) := by
  refine .trans ?_ (funext fun i => (congrArg (fun z : Elt Ideal .f32 => max (_ + z) _)
    (Cert.Lib.rowBias_apply b _ _ i)).symm)
  refine (Fr.dat1 (F := Ideal) V c).arrAt_eq_of_cover 2 _ (fun t _ => ?_) cover1
  show (cfg1.win 2).cut (grid1.coords t) ((Fr.dat1 V c).after 2 t) = _
  rw [Fr.after1_2]
  unfold Fr.out1_2
  rw [View.canon_unit_zero hz1, View.ld_unit_zero hz1, View.ld_unit_zero hz1]
  obtain ⟨e0, e1, e2, e3, e4, e5⟩ := idx_facts1 t
  funext y
  refine (pay1_apply _ _ y).trans ?_
  refine congrArg₂ (fun p q : Elt Ideal .f32 => max (p + q) _)
    (congrArg (V c main_v42 : Vec Ideal S100000x128 .f32) (Shape.idx_ext₂ ?_ ?_))
    ((congrArg (V c main_v43 : Vec Ideal S1x128 .f32)
        (Shape.idx_ext₂ (y := ix2 (0 : Fin 1) (((cfg1.win 2).blk t).view.emb y 1)) ?_ ?_)).trans
      ((congrFun hb _).trans (shapeCast_a_1a_apply b _ _ _)))
  · show win1_0.index t 0 * _ + _ = win1_2.index t 0 * _ + _; rw [e0, e4]; rfl
  · show win1_0.index t 1 * _ + _ = win1_2.index t 1 * _ + _; rw [e1, e5]; rfl
  · show win1_1.index t 0 * 1 + 1 * 0 = 0; rw [e2]
  · show win1_1.index t 1 * _ + _ = win1_2.index t 1 * _ + _; rw [e3, e5]; rfl

end Cert.KernelIdeal.Val

end
-- ==== Proof.KI.ValBr3.lean ====
import proofs.«169203_j82712480186688_1_alg».proof.Proof.KI.Reg3
import proofs.«169203_j82712480186688_1_alg».proof.Proof.RefRun
import proofs.«169203_j82712480186688_1_alg».proof.Proof.LibRowBias
import Idealize.ShloMosaic.Lib.ValueLayout

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := by decide

/-- The body at an index: the block's element plus the one row's at that column, cut below at zero. -/
theorem pay3_apply (x : Vec Ideal S5000x128 .f32) (w : Vec Ideal S1x128 .f32) (y : S5000x128.Idx) :
    k3_pay1 x w y = max (x y + w (ix2 (0 : Fin 1) (y 1))) (Ideal.ofBits .f32 0x00000000#32) := by
  show max (shapeCast _ x _ y + broadcastTo _ (shapeCast _ w _) _ y) _ = _
  rw [shapeCast_self, shapeCast_self, broadcastTo_apply w _ y (ix2 (0 : Fin 1) (y 1))
    (fun a => match a with | ⟨0, _⟩ => rfl | ⟨1, _⟩ => rfl)]
  rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row r is row r % 5000 of block r / 5000, so the blocks cover the array. -/
theorem cover3 (i : S100000x128.Idx) :
    ∃ t : Fin cfg3.N, (cfg3.win 2).flush t = true ∧ i ∈ ((cfg3.win 2).blk t).view.set := by
  have hi : (i 0).val < 100000 := (i 0).isLt
  obtain ⟨t, ht⟩ : ∃ t : Fin cfg3.N, t.val = (i 0).val / 5000 :=
    ⟨Fin.cast N_3.symm ⟨(i 0).val / 5000, by omega⟩, rfl⟩
  obtain ⟨-, -, -, -, e4, e5⟩ := idx_facts3 t
  refine ⟨t, flush3_2 t, ?_⟩
  rw [show i = ((cfg3.win 2).blk t).view.emb (ix2 ⟨(i 0).val % 5000, Nat.mod_lt _ (by decide)⟩ (i 1)) from
    Shape.idx_ext₂ (by show (i 0).val = win3_2.index t 0 * 5000 + 1 * ((i 0).val % 5000); omega)
      (by show (i 1).val = win3_2.index t 1 * _ + 1 * (i 1).val; rw [e5]; omega)]
  exact View.emb_mem_set _ _

theorem br3 (c : Dev nD) (b : Vec Ideal S128 .f32)
    (hb : (V c main_v59 : Vec Ideal S1x128 .f32) = shapeCast S1x128 b shapeCasts_S128_S1x128) :
    ((Fr.dat3 (F := Ideal) V c).arrAt 2 cfg3.N : Vec Ideal S100000x128 .f32)
      = maximumf (addf (V c main_v58) (broadcastInDim S100000x128 ![0, 1] Cert.ReferenceIdeal.Gen.bcast_S1x128_S100000x128_0_1
            (broadcastInDim S1x128 ![1] Cert.ReferenceIdeal.Gen.bcast_S128_S1x128_1 b)))
          (broadcastInDim S100000x128 ![] Cert.ReferenceIdeal.Gen.bcast_S_S100000x128
            (constant (F := Ideal) S_ .f32 0x00000000#32)) := by
  refine .trans ?_ (funext fun i => (congrArg (fun z : Elt Ideal .f32 => max (_ + z) _)
    (Cert.Lib.rowBias_apply b _ _ i)).symm)
  refine (Fr.dat3 (F := Ideal) V c).arrAt_eq_of_cover 2 _ (fun t _ => ?_) cover3
  show (cfg3.win 2).cut (grid3.coords t) ((Fr.dat3 V c).after 2 t) = _
  rw [Fr.after3_2]
  unfold Fr.out3_2
  rw [View.canon_unit_zero hz3, View.ld_unit_zero hz3, View.ld_unit_zero hz3]
  obtain ⟨e0, e1, e2, e3, e4, e5⟩ := idx_facts3 t
  funext y
  refine (pay3_apply _ _ y).trans ?_
  refine congrArg₂ (fun p q : Elt Ideal .f32 => max (p + q) _)
    (congrArg (V c main_v58 : Vec Ideal S100000x128 .f32) (Shape.idx_ext₂ ?_ ?_))
    ((congrArg (V c main_v59 : Vec Ideal S1x128 .f32)
        (Shape.idx_ext₂ (y := ix2 (0 : Fin 1) (((cfg3.win 2).blk t).view.emb y 1)) ?_ ?_)).trans
      ((congrFun hb _).trans (shapeCast_a_1a_apply b _ _ _)))
  · show win3_0.index t 0 * _ + _ = win3_2.index t 0 * _ + _; rw [e0, e4]; rfl
  · show win3_0.index t 1 * _ + _ = win3_2.index t 1 * _ + _; rw [e1, e5]; rfl
  · show win3_1.index t 0 * 1 + 1 * 0 = 0; rw [e2]
  · show win3_1.index t 1 * _ + _ = win3_2.index t 1 * _ + _; rw [e3, e5]; rfl

end Cert.KernelIdeal.Val

end
-- ==== Proof.KI.ValBr5.lean ====
import proofs.«169203_j82712480186688_1_alg».proof.Proof.KI.Reg5
import proofs.«169203_j82712480186688_1_alg».proof.Proof.RefRun
import proofs.«169203_j82712480186688_1_alg».proof.Proof.LibRowBias
import Idealize.ShloMosaic.Lib.ValueLayout

noncomputable section

namespace Cert.KernelIdeal.Val

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := by decide

/-- The body at an index: the block's element plus the one row's at that column, cut below at zero. -/
theorem pay5_apply (x : Vec Ideal S5000x64 .f32) (w : Vec Ideal S1x64 .f32) (y : S5000x64.Idx) :
    k5_pay1 x w y = max (x y + w (ix2 (0 : Fin 1) (y 1))) (Ideal.ofBits .f32 0x00000000#32) := by
  show max (shapeCast _ x _ y + broadcastTo _ (shapeCast _ w _) _ y) _ = _
  rw [shapeCast_self, shapeCast_self, broadcastTo_apply w _ y (ix2 (0 : Fin 1) (y 1))
    (fun a => match a with | ⟨0, _⟩ => rfl | ⟨1, _⟩ => rfl)]
  rfl

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row r is row r % 5000 of block r / 5000, so the blocks cover the array. -/
theorem cover5 (i : S100000x64.Idx) :
    ∃ t : Fin cfg5.N, (cfg5.win 2).flush t = true ∧ i ∈ ((cfg5.win 2).blk t).view.set := by
  have hi : (i 0).val < 100000 := (i 0).isLt
  obtain ⟨t, ht⟩ : ∃ t : Fin cfg5.N, t.val = (i 0).val / 5000 :=
    ⟨Fin.cast N_5.symm ⟨(i 0).val / 5000, by omega⟩, rfl⟩
  obtain ⟨-, -, -, -, e4, e5⟩ := idx_facts5 t
  refine ⟨t, flush5_2 t, ?_⟩
  rw [show i = ((cfg5.win 2).blk t).view.emb (ix2 ⟨(i 0).val % 5000, Nat.mod_lt _ (by decide)⟩ (i 1)) from
    Shape.idx_ext₂ (by show (i 0).val = win5_2.index t 0 * 5000 + 1 * ((i 0).val % 5000); omega)
      (by show (i 1).val = win5_2.index t 1 * _ + 1 * (i 1).val; rw [e5]; omega)]
  exact View.emb_mem_set _ _

theorem br5 (c : Dev nD) (b : Vec Ideal S64 .f32)
    (hb : (V c main_v75 : Vec Ideal S1x64 .f32) = shapeCast S1x64 b shapeCasts_S64_S1x64) :
    ((Fr.dat5 (F := Ideal) V c).arrAt 2 cfg5.N : Vec Ideal S100000x64 .f32)
      = maximumf (addf (V c main_v74) (broadcastInDim S100000x64 ![0, 1] Cert.ReferenceIdeal.Gen.bcast_S1x64_S100000x64_0_1
            (broadcastInDim S1x64 ![1] Cert.ReferenceIdeal.Gen.bcast_S64_S1x64_1 b)))
          (broadcastInDim S100000x64 ![] Cert.ReferenceIdeal.Gen.bcast_S_S100000x64
            (constant (F := Ideal) S_ .f32 0x00000000#32)) := by
  refine .trans ?_ (funext fun i => (congrArg (fun z : Elt Ideal .f32 => max (_ + z) _)
    (Cert.Lib.rowBias_apply b _ _ i)).symm)
  refine (Fr.dat5 (F := Ideal) V c).arrAt_eq_of_cover 2 _ (fun t _ => ?_) cover5
  show (cfg5.win 2).cut (grid5.coords t) ((Fr.dat5 V c).after 2 t) = _
  rw [Fr.after5_2]
  unfold Fr.out5_2
  rw [View.canon_unit_zero hz5, View.ld_unit_zero hz5, View.ld_unit_zero hz5]
  obtain ⟨e0, e1, e2, e3, e4, e5⟩ := idx_facts5 t
  funext y
  refine (pay5_apply _ _ y).trans ?_
  refine congrArg₂ (fun p q : Elt Ideal .f32 => max (p + q) _)
    (congrArg (V c main_v74 : Vec Ideal S100000x64 .f32) (Shape.idx_ext₂ ?_ ?_))
    ((congrArg (V c main_v75 : Vec Ideal S1x64 .f32)
        (Shape.idx_ext₂ (y := ix2 (0 : Fin 1) (((cfg5.win 2).blk t).view.emb y 1)) ?_ ?_)).trans
      ((congrFun hb _).trans (shapeCast_a_1a_apply b _ _ _)))
  · show win5_0.index t 0 * _ + _ = win5_2.index t 0 * _ + _; rw [e0, e4]; rfl
  · show win5_0.index t 1 * _ + _ = win5_2.index t 1 * _ + _; rw [e1, e5]; rfl
  · show win5_1.index t 0 * 1 + 1 * 0 = 0; rw [e2]
  · show win5_1.index t 1 * _ + _ = win5_2.index t 1 * _ + _; rw [e3, e5]; rfl

end Cert.KernelIdeal.Val

end
-- ==== Proof.KI.ValPrefix.lean ====
import proofs.«169203_j82712480186688_1_alg».proof.Proof.KI.Fold
import proofs.«169203_j82712480186688_1_alg».proof.Proof.RefRun

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ) (c : Dev nD)

section
open Idealize.ShloMosaic.StableHlo

theorem pre_v3 : Fr.U1 m c main_v3 = Cert.ReferenceIdeal.Read.val_main_v3 (F := Ideal) (m ((c : Thread nD τ).loc main_arg1)) := by
  show after hostOps0 (fun b => m (c, b)) (Proc.devRef .tc main_v3) = _
  after_results
  rfl

theorem pre_v6 : Fr.U1 m c main_v6 = Cert.ReferenceIdeal.Read.val_main_v6 (F := Ideal) (m ((c : Thread nD τ).loc main_arg1)) := by
  show after hostOps0 (fun b => m (c, b)) (Proc.devRef .tc main_v6) = _
  after_results
  rfl

theorem pre_v13 : Fr.U1 m c main_v13 = Cert.ReferenceIdeal.Read.val_main_v13 (F := Ideal) (m ((c : Thread nD τ).loc main_arg1)) := by
  show after hostOps0 (fun b => m (c, b)) (Proc.devRef .tc main_v13) = _
  after_results
  rfl

theorem pre_v28 : Fr.U1 m c main_v28 = Cert.ReferenceIdeal.Read.val_main_v28 (F := Ideal) (m ((c : Thread nD τ).loc main_arg1)) := by
  show after hostOps0 (fun b => m (c, b)) (Proc.devRef .tc main_v28) = _
  after_results_simp
  rfl

end

/-- What no later host stretch writes and no region puts out is, at every later boundary, what the first stretch left. -/
theorem keep (r : Ref sig .tc) (h : r ≠ main_v29 ∧ r ∉ hostOps1_W ∧ r ≠ main_v44 ∧ r ≠ main_v45 ∧ r ∉ hostOps3_W
      ∧ r ≠ main_v60 ∧ r ≠ main_v61 ∧ r ∉ hostOps5_W ∧ r ≠ main_v76 ∧ r ∉ hostOps6_W) :
    Fr.U2 m c r = Fr.U1 m c r ∧ Fr.U4 m c r = Fr.U1 m c r ∧ Fr.U5 m c r = Fr.U1 m c r ∧ Fr.U7 m c r = Fr.U1 m c r
      ∧ Fr.U8 m c r = Fr.U1 m c r ∧ Fr.U10 m c r = Fr.U1 m c r ∧ Fr.U11 m c r = Fr.U1 m c r := by
  obtain ⟨h2, h3, h4, h5, h6, h7, h8, h9, h10, h11⟩ := h
  have e2 := Fr.U2_of m c r h2
  have e4 := (Fr.U4_of m c r h4).trans ((Fr.U3_of m c r h3).trans e2)
  have e5 := (Fr.U5_of m c r h5).trans e4
  have e7 := (Fr.U7_of m c r h7).trans ((Fr.U6_of m c r h6).trans e5)
  have e8 := (Fr.U8_of m c r h8).trans e7
  have e10 := (Fr.U10_of m c r h10).trans ((Fr.U9_of m c r h9).trans e8)
  exact ⟨e2, e4, e5, e7, e8, e10, (Fr.U11_of m c r h11).trans e10⟩

theorem U1_arg0 : Fr.U1 m c main_arg0 = m ((c : Thread nD τ).loc main_arg0) := Fr.U1_of m c _ (by decide)
theorem U1_arg2 : Fr.U1 m c main_arg2 = m ((c : Thread nD τ).loc main_arg2) := Fr.U1_of m c _ (by decide)
theorem U2_arg3 : Fr.U2 m c main_arg3 = m ((c : Thread nD τ).loc main_arg3) :=
  (keep m c _ (by decide)).1.trans (Fr.U1_of m c _ (by decide))
theorem U4_arg4 : Fr.U4 m c main_arg4 = m ((c : Thread nD τ).loc main_arg4) :=
  (keep m c _ (by decide)).2.1.trans (Fr.U1_of m c _ (by decide))
theorem U5_arg5 : Fr.U5 m c main_arg5 = m ((c : Thread nD τ).loc main_arg5) :=
  (keep m c _ (by decide)).2.2.1.trans (Fr.U1_of m c _ (by decide))
theorem U7_arg6 : Fr.U7 m c main_arg6 = m ((c : Thread nD τ).loc main_arg6) :=
  (keep m c _ (by decide)).2.2.2.1.trans (Fr.U1_of m c _ (by decide))
theorem U8_arg7 : Fr.U8 m c main_arg7 = m ((c : Thread nD τ).loc main_arg7) :=
  (keep m c _ (by decide)).2.2.2.2.1.trans (Fr.U1_of m c _ (by decide))
theorem U10_arg9 : Fr.U10 m c main_arg9 = m ((c : Thread nD τ).loc main_arg9) :=
  (keep m c _ (by decide)).2.2.2.2.2.1.trans (Fr.U1_of m c _ (by decide))
theorem U10_arg11 : Fr.U10 m c main_arg11 = m ((c : Thread nD τ).loc main_arg11) :=
  (keep m c _ (by decide)).2.2.2.2.2.1.trans (Fr.U1_of m c _ (by decide))
theorem U11_arg8 : Fr.U11 m c main_arg8 = m ((c : Thread nD τ).loc main_arg8) :=
  (keep m c _ (by decide)).2.2.2.2.2.2.trans (Fr.U1_of m c _ (by decide))
theorem U11_arg10 : Fr.U11 m c main_arg10 = m ((c : Thread nD τ).loc main_arg10) :=
  (keep m c _ (by decide)).2.2.2.2.2.2.trans (Fr.U1_of m c _ (by decide))

theorem U2_v3 : Fr.U2 m c main_v3 = Fr.U1 m c main_v3 := (keep m c _ (by decide)).1
theorem U2_v6 : Fr.U2 m c main_v6 = Fr.U1 m c main_v6 := (keep m c _ (by decide)).1
theorem U2_v28 : Fr.U2 m c main_v28 = Fr.U1 m c main_v28 := (keep m c _ (by decide)).1
theorem U5_v3 : Fr.U5 m c main_v3 = Fr.U1 m c main_v3 := (keep m c _ (by decide)).2.2.1
theorem U5_v6 : Fr.U5 m c main_v6 = Fr.U1 m c main_v6 := (keep m c _ (by decide)).2.2.1
theorem U5_v28 : Fr.U5 m c main_v28 = Fr.U1 m c main_v28 := (keep m c _ (by decide)).2.2.1
theorem U8_v3 : Fr.U8 m c main_v3 = Fr.U1 m c main_v3 := (keep m c _ (by decide)).2.2.2.2.1
theorem U8_v6 : Fr.U8 m c main_v6 = Fr.U1 m c main_v6 := (keep m c _ (by decide)).2.2.2.2.1
theorem U8_v28 : Fr.U8 m c main_v28 = Fr.U1 m c main_v28 := (keep m c _ (by decide)).2.2.2.2.1

theorem U2_v29 : Fr.U2 m c main_v29 = Fr.X0 m c := Function.update_self _ _ _
theorem U4_v44 : Fr.U4 m c main_v44 = Fr.X1 m c := Function.update_self _ _ _
theorem U5_v45 : Fr.U5 m c main_v45 = Fr.X2 m c := Function.update_self _ _ _
theorem U7_v60 : Fr.U7 m c main_v60 = Fr.X3 m c := Function.update_self _ _ _
theorem U8_v61 : Fr.U8 m c main_v61 = Fr.X4 m c := Function.update_self _ _ _
theorem U10_v76 : Fr.U10 m c main_v76 = Fr.X5 m c := Function.update_self _ _ _
theorem U11_v76 : Fr.U11 m c main_v76 = Fr.X5 m c := (Fr.U11_of m c _ (by decide)).trans (U10_v76 m c)

end Cert.KernelIdeal.Val

end
-- ==== Proof.KI.ValAgg.lean ====
import proofs.«169203_j82712480186688_1_alg».proof.Proof.KI.Fold
import proofs.«169203_j82712480186688_1_alg».proof.Proof.RefRun
import Idealize.ShloMosaic.Lib.StableHlo.Run

noncomputable section

namespace Cert.KernelIdeal.Val

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (c : Dev nD)

/-- A layer's message passing is the reference's own operations in the reference's order, so from equal products, edge lists and weights it leaves the reference's aggregate. -/
theorem ker_agg1 {x0 x1 x2} (h : Fr.U2 m c main_v29 = val_main_v29 (F := Ideal) x0 x2) (hs : Fr.U2 m c main_v3 = val_main_v3 x1)
    (hd : Fr.U2 m c main_v6 = val_main_v6 x1) (hw : Fr.U2 m c main_v28 = val_main_v28 x1) :
    Fr.U3 m c main_v42 = val_main_v42 (F := Ideal) x0 x1 x2 := by
  show StableHlo.after hostOps1 (Fr.U2 m c) (Proc.devRef .tc main_v42) = _
  after_results_simp
  rw [h, hs, hd, hw]
  rfl

theorem ker_agg2 {x0 x1 x2 x3 x4} (h : Fr.U5 m c main_v45 = val_main_v47 (F := Ideal) x0 x1 x2 x3 x4)
    (hs : Fr.U5 m c main_v3 = val_main_v3 x1) (hd : Fr.U5 m c main_v6 = val_main_v6 x1) (hw : Fr.U5 m c main_v28 = val_main_v28 x1) :
    Fr.U6 m c main_v58 = val_main_v60 (F := Ideal) x0 x1 x2 x3 x4 := by
  show StableHlo.after hostOps3 (Fr.U5 m c) (Proc.devRef .tc main_v58) = _
  after_results_simp
  rw [h, hs, hd, hw]
  rfl

theorem ker_agg3 {x0 x1 x2 x3 x4 x5 x6} (h : Fr.U8 m c main_v61 = val_main_v65 (F := Ideal) x0 x1 x2 x3 x4 x5 x6)
    (hs : Fr.U8 m c main_v3 = val_main_v3 x1) (hd : Fr.U8 m c main_v6 = val_main_v6 x1) (hw : Fr.U8 m c main_v28 = val_main_v28 x1) :
    Fr.U9 m c main_v74 = val_main_v78 (F := Ideal) x0 x1 x2 x3 x4 x5 x6 := by
  show StableHlo.after hostOps5 (Fr.U8 m c) (Proc.devRef .tc main_v74) = _
  after_results_simp
  rw [h, hs, hd, hw]
  rfl

/-- A bias row is the row-major recast of the bias argument, which no earlier operation writes. -/
theorem ker_b1 {b} (h : Fr.U2 m c main_arg3 = b) :
    (Fr.U3 m c main_v43 : Vec Ideal S1x128 .f32) = shapeCast S1x128 (b : Vec Ideal S128 .f32) Facts₀.shapeCasts_S128_S1x128 := by
  subst h
  show StableHlo.after hostOps1 (Fr.U2 m c) (Proc.devRef .tc main_v43) = _
  after_results_simp
  rfl

theorem ker_b2 {b} (h : Fr.U5 m c main_arg5 = b) :
    (Fr.U6 m c main_v59 : Vec Ideal S1x128 .f32) = shapeCast S1x128 (b : Vec Ideal S128 .f32) Facts₀.shapeCasts_S128_S1x128 := by
  subst h
  show StableHlo.after hostOps3 (Fr.U5 m c) (Proc.devRef .tc main_v59) = _
  after_results_simp
  rfl

theorem ker_b3 {b} (h : Fr.U8 m c main_arg7 = b) :
    (Fr.U9 m c main_v75 : Vec Ideal S1x64 .f32) = shapeCast S1x64 (b : Vec Ideal S64 .f32) Facts₀.shapeCasts_S64_S1x64 := by
  subst h
  show StableHlo.after hostOps5 (Fr.U8 m c) (Proc.devRef .tc main_v75) = _
  after_results_simp
  rfl

theorem ker_b4 {b} (h : Fr.U10 m c main_arg9 = b) :
    (Fr.U11 m c main_v77 : Vec Ideal S1x32 .f32) = shapeCast S1x32 (b : Vec Ideal S32 .f32) Facts₀.shapeCasts_S32_S1x32 := by
  subst h
  show StableHlo.after hostOps6 (Fr.U10 m c) (Proc.devRef .tc main_v77) = _
  after_results_simp
  rfl

theorem ker_b5 {b} (h : Fr.U10 m c main_arg11 = b) :
    (Fr.U11 m c main_v78 : Vec Ideal S1x2 .f32) = shapeCast S1x2 (b : Vec Ideal S2 .f32) Facts₀.shapeCasts_S2_S1x2 := by
  subst h
  show StableHlo.after hostOps6 (Fr.U10 m c) (Proc.devRef .tc main_v78) = _
  after_results_simp
  rfl

end Cert.KernelIdeal.Val

end
-- ==== Proof.KI.ValTop.lean ====
import proofs.«169203_j82712480186688_1_alg».proof.Proof.Gen.KernelIdeal.Skeleton
import proofs.«169203_j82712480186688_1_alg».proof.Proof.RefRun
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Val

open Cert.KernelIdeal Cert.KernelIdeal.Gen
open Idealize.ShloMosaic Idealize.ShloMosaic.TcCoe Idealize.SL.Sem
open Idealize.ShloMosaic.ValueIdx
open Cert.ReferenceIdeal.Read
open scoped BigOperators

def rowMax (z : Vec Ideal Cert.ReferenceIdeal.S1x2 .f32) : Vec Ideal Cert.ReferenceIdeal.S1x2 .f32 :=
  broadcastInDim Cert.ReferenceIdeal.S1x2 ![0, 1] Cert.ReferenceIdeal.Gen.bcast_S1x1_S1x2_0_1
    (broadcastInDim Cert.ReferenceIdeal.S1x1 ![0] Cert.ReferenceIdeal.Gen.bcast_S1_S1x1_0
      (maximumf (φ := .f32)
        (broadcastInDim Cert.ReferenceIdeal.S1 ![] Cert.ReferenceIdeal.Gen.bcast_S_S1
          (constant (F := Ideal) Cert.ReferenceIdeal.S_ .f32 0xFF800000#32))
        (Host.reduce FloatOps.maximumf z (constant (F := Ideal) Cert.ReferenceIdeal.S_ .f32 0xFF800000#32)
          Cert.ReferenceIdeal.Gen.reducesTo_S1x2_S1_d1 Cert.ReferenceIdeal.Gen.h_S_)))

def rowSum (e : Vec Ideal Cert.ReferenceIdeal.S1x2 .f32) : Vec Ideal Cert.ReferenceIdeal.S1x2 .f32 :=
  broadcastInDim Cert.ReferenceIdeal.S1x2 ![0, 1] Cert.ReferenceIdeal.Gen.bcast_S1x1_S1x2_0_1
    (broadcastInDim Cert.ReferenceIdeal.S1x1 ![0] Cert.ReferenceIdeal.Gen.bcast_S1_S1x1_0
      (Host.reduceAdd (φ := .f32) e (constant (F := Ideal) Cert.ReferenceIdeal.S_ .f32 0x00000000#32)
        Cert.ReferenceIdeal.Gen.reducesTo_S1x2_S1_d1 Cert.ReferenceIdeal.Gen.h_S_))

/-- Into a zero accumulator both products are the sum over the contracted axis. -/
theorem matmul_zero_eq_dotGeneral {sl sr so : Shape} (d : DotDims sl sr so) (a : FVec Ideal sl .f32) (b : FVec Ideal sr .f32) :
    matmul d none (truncf .bf16 a bitsLt_bf16_f32) (truncf .bf16 b bitsLt_bf16_f32) (constant (F := Ideal) so .f32 0x00000000#32)
      = Host.dotGeneral (φ₁ := .f32) (φ₂ := .f32) d none a b := by
  funext j
  show FloatOps.matmul d none (truncf .bf16 a bitsLt_bf16_f32) (truncf .bf16 b bitsLt_bf16_f32)
      (constant (F := Ideal) so .f32 0x00000000#32) j = FloatOps.dotGeneral d none .single a b j
  rw [Ideal.matmul_constant_zero_apply, Ideal.dotGeneral_apply]
  rfl

theorem idx_S1_eq (p q : S1.Idx) : p = q :=
  funext fun a => match a with
    | ⟨0, h0⟩ => Subsingleton.elim (α := Fin 1) (p ⟨0, h0⟩) (q ⟨0, h0⟩)

/-- The array of one entry has one index, so both ways of spreading it over the row read that entry. -/
theorem spread_eq {α : Type} (v : S1.Idx → α) :
    broadcastTo S1x2 (shapeCast S1x1 v shapeCasts_S1_S1x1) broadcasts_S1x1_S1x2
      = broadcastInDim Cert.ReferenceIdeal.S1x2 ![0, 1] Cert.ReferenceIdeal.Gen.bcast_S1x1_S1x2_0_1
          (broadcastInDim Cert.ReferenceIdeal.S1x1 ![0] Cert.ReferenceIdeal.Gen.bcast_S1_S1x1_0 v) := by
  funext i
  unfold broadcastTo shapeCast broadcastInDim
  exact congrArg v (idx_S1_eq _ _)

def kRowMax (z : Vec Ideal S1x2 .f32) : FVec Ideal S1x2 .f32 :=
  broadcastTo S1x2
    (shapeCast S1x1
      (maximumf (F := Ideal) (φ := .f32) (broadcast S1 (Scalar.ofBits (F := Ideal) .f32 0xFF800000#32))
        (multiReduction (F := Ideal) (φ := .f32) .maximumf [1] S1 z 0xFF800000#32 reduces_S1x2_S1 (.inl rfl) rfl))
      shapeCasts_S1_S1x1)
    broadcasts_S1x1_S1x2

/-- Both maxima are one fold of `max` over the row from the same initial value. -/
theorem kRowMax_eq (z : Vec Ideal S1x2 .f32) : kRowMax z = rowMax z := by
  unfold kRowMax rowMax
  rw [spread_eq]
  refine congrArg _ (congrArg _ ?_)
  funext j
  show max _ _ = max _ _
  refine congrArg₂ max rfl ?_
  rw [Host.reduce_eq_fold]
  exact multiReduction_maximumf_eq_fold (F := Ideal) (φ := .f32) z 0xFF800000#32 reduces_S1x2_S1 (.inl rfl) rfl j

def kRowSum (e : Vec Ideal S1x2 .f32) : FVec Ideal S1x2 .f32 :=
  broadcastTo S1x2
    (shapeCast S1x1 (multiReduction (F := Ideal) (φ := .f32) .add [1] S1 e 0x00000000#32 reduces_S1x2_S1 (.inl rfl) rfl)
      shapeCasts_S1_S1x1)
    broadcasts_S1x1_S1x2

/-- Both sums are the sum of the row's entries from zero. -/
theorem kRowSum_eq (e : Vec Ideal S1x2 .f32) : kRowSum e = rowSum e := by
  unfold kRowSum rowSum
  rw [spread_eq]
  refine congrArg _ (congrArg _ ?_)
  funext j
  refine (Ideal.multiReduction_add_single (φ := .f32) e 0x00000000#32 reduces_S1x2_S1 (.inl rfl) rfl j).trans ?_
  refine Eq.trans ?_ (Ideal.hostReduceAdd_single Cert.ReferenceIdeal.Gen.reducesTo_S1x2_S1_d1 reduces_S1x2_S1 e
    (Ideal.ofBits .f32 0x00000000#32) j).symm
  rw [Ideal.ofBits_zero_f32, zero_add]

def kSoftmax (z : Vec Ideal S1x2 .f32) : FVec Ideal S1x2 .f32 :=
  divf (F := Ideal) (φ := .f32) (exp (F := Ideal) (φ := .f32) (subf (F := Ideal) (φ := .f32) z (kRowMax z)))
    (kRowSum (exp (F := Ideal) (φ := .f32) (subf (F := Ideal) (φ := .f32) z (kRowMax z))))

/-- At column `j` both the recast and the broadcast along the column axis read the vector at `j`. -/
theorem biasRow_eq {n : Nat} {α : Type} (b : (⟨1, ![n]⟩ : Shape).Idx → α)
    (h1 : (⟨1, ![n]⟩ : Shape).ShapeCasts ⟨2, ![1, n]⟩) (h2 : (⟨2, ![1, n]⟩ : Shape).ShapeCasts ⟨2, ![1, n]⟩)
    (hb : (⟨1, ![n]⟩ : Shape).BroadcastsInDim ⟨2, ![1, n]⟩ (![1] : Fin 1 → Fin 2)) (hn : n ≠ 1) :
    shapeCast ⟨2, ![1, n]⟩ (shapeCast ⟨2, ![1, n]⟩ b h1) h2 = broadcastInDim ⟨2, ![1, n]⟩ ![1] hb b := by
  rw [shapeCast_self]
  funext i
  obtain ⟨u, k, rfl⟩ : ∃ (u : Fin 1) (k : Fin n), i = ix2 u k := ⟨i 0, i 1, eq_ix2 i⟩
  rw [shapeCast_a_1a_apply]
  exact (broadcastInDim_apply _ hb b (ix2 u k) (ix1 k) (fun a => match a with
    | ⟨0, _⟩ => by show k.val = if n = 1 then 0 else k.val; rw [if_neg hn])).symm

def kClassify (m : Vec Ideal S1x64 .f32) (w1 : Vec Ideal S64x32 .f32) (r1 : Vec Ideal S1x32 .f32)
    (w2 : Vec Ideal S32x2 .f32) (r2 : Vec Ideal S1x2 .f32) : FVec Ideal S1x2 .f32 :=
  addf (F := Ideal) (φ := .f32)
    (matmul dot_S1x32_S32x2_S1x2_1_0_0_1_n_n none
      (truncf (F := Ideal) (φ := .f32) .bf16
        (maximumf (F := Ideal) (φ := .f32)
          (addf (F := Ideal) (φ := .f32)
            (matmul dot_S1x64_S64x32_S1x32_1_0_0_1_n_n none (truncf (F := Ideal) (φ := .f32) .bf16 m bitsLt_bf16_f32)
              (truncf (F := Ideal) (φ := .f32) .bf16 w1 bitsLt_bf16_f32) (constant (F := Ideal) S1x32 .f32 0x00000000#32))
            (shapeCast S1x32 r1 shapeCasts_S1x32_S1x32))
          (broadcast S1x32 (Scalar.ofBits (F := Ideal) .f32 0x00000000#32)))
        bitsLt_bf16_f32)
      (truncf (F := Ideal) (φ := .f32) .bf16 w2 bitsLt_bf16_f32) (constant (F := Ideal) S1x2 .f32 0x00000000#32))
    (shapeCast S1x2 r2 shapeCasts_S1x2_S1x2)

/-- With the bias rows the recasts of the bias vectors, the classifier on the reference's mean row is the reference's logits row. -/
theorem kClassify_eq {x0 x1 x2 x3 x4 x5 x6 x7 x8 x9 x10 x11} :
    kClassify (val_main_v86 (F := Ideal) x0 x1 x2 x3 x4 x5 x6 x7) x8 (shapeCast S1x32 x9 shapeCasts_S32_S1x32) x10 (shapeCast S1x2 x11 shapeCasts_S2_S1x2)
      = val_main_v93 (F := Ideal) x0 x1 x2 x3 x4 x5 x6 x7 x8 x9 x10 x11 := by
  unfold kClassify
  rw [matmul_zero_eq_dotGeneral, matmul_zero_eq_dotGeneral,
    biasRow_eq x9 shapeCasts_S32_S1x32 shapeCasts_S1x32_S1x32 Cert.ReferenceIdeal.Gen.bcast_S32_S1x32_1 (by decide),
    biasRow_eq x11 shapeCasts_S2_S1x2 shapeCasts_S1x2_S1x2 Cert.ReferenceIdeal.Gen.bcast_S2_S1x2_1 (by decide)]
  rfl

theorem ofBits_100000 : Ideal.ofBits .f32 0x47C35000#32 = ((100000 : ℝ) : EReal) := by
  simp [Ideal.ofBits, Ideal.ieee, -EReal.coe_mul]; norm_num

theorem inv_n : Named.named (F := Ideal) κ "inv_100000" (φ := .f32) 0x3727C5AC#32 = ((1 / 100000 : ℝ) : EReal) :=
  IdealRules.named_const.ideal_named_scalar _ _ _ _ rfl

/-- A quotient by a nonzero real is the product with its reciprocal, so the column sums times 1/100000 are the reference's mean row. -/
theorem kMean_eq {x0 x1 x2 x3 x4 x5 x6 x7} (s : Vec Ideal S1x64 .f32)
    (hs : ∀ k : Fin 64, s (ix2 (0 : Fin 1) k) = ∑ n : Fin 100000, val_main_v82 (F := Ideal) x0 x1 x2 x3 x4 x5 x6 x7 (ix2 n k)) :
    mulf (F := Ideal) (φ := .f32) s (broadcast S1x64 (Named.named (F := Ideal) κ "inv_100000" (φ := .f32) 0x3727C5AC#32))
      = val_main_v86 (F := Ideal) x0 x1 x2 x3 x4 x5 x6 x7 := by
  funext i
  obtain ⟨u, k, rfl⟩ : ∃ (u : Fin 1) (k : Fin 64), i = ix2 u k := ⟨i 0, i 1, eq_ix2 i⟩
  obtain rfl : u = 0 := Subsingleton.elim _ _
  unfold val_main_v86 val_main_v85 val_main_v84 val_main_v83 val_main_cst_15 val_main_cst_14
  rw [mulf_apply, broadcast_apply, inv_n, hostDivf_apply, broadcastInDim_scalar_apply, constant_apply, ofBits_100000,
    Ideal.div_coe (by norm_num : (100000 : ℝ) ≠ 0), hs k]
  refine congrArg (fun x : EReal => x * ((1 / 100000 : ℝ) : EReal)) ?_
  rw [broadcastInDim_apply _ Cert.ReferenceIdeal.Gen.bcast_S64_S1x64_1 _ (ix2 (0 : Fin 1) k) (ix1 k) (fun a => match a with
    | ⟨0, _⟩ => by show k.val = if (64 : Nat) = 1 then 0 else k.val; rw [if_neg (by decide)]),
    hostReduceAdd_apply,
    Ideal.hostReduceAdd_single Cert.ReferenceIdeal.Gen.reducesTo_S100000x64_S64_d0 (by decide)]
  show _ = Ideal.ofBits .f32 0x00000000#32 + _
  rw [Ideal.ofBits_zero_f32, zero_add]
  refine Finset.sum_congr rfl fun n _ => ?_
  congr 1
  exact funext fun a => Fin.ext (by match a with | ⟨0, _⟩ => rfl | ⟨1, _⟩ => rfl)

/-- From a row holding the column sums of the reference's last activations, the last point's output row is the reference's result. -/
theorem ker_top {x0 x1 x2 x3 x4 x5 x6 x7 x8 x9 x10 x11} (s : Vec Ideal S1x64 .f32) (h : Vec Ideal S100000x64 .f32)
    (hs : ∀ k : Fin 64, s (ix2 (0 : Fin 1) k) = ∑ n : Fin 100000, h (ix2 n k))
    (hh : h = val_main_v82 (F := Ideal) x0 x1 x2 x3 x4 x5 x6 x7) :
    k6_pay3 (F := Ideal) s x8 (shapeCast S1x32 x9 shapeCasts_S32_S1x32) x10 (shapeCast S1x2 x11 shapeCasts_S2_S1x2)
      = val_main_v104 (F := Ideal) x0 x1 x2 x3 x4 x5 x6 x7 x8 x9 x10 x11 := by
  subst hh
  show kSoftmax (kClassify (mulf (F := Ideal) (φ := .f32) s
    (broadcast S1x64 (Named.named (F := Ideal) κ "inv_100000" (φ := .f32) 0x3727C5AC#32))) x8 _ x10 _) = _
  rw [kMean_eq s hs, kClassify_eq]
  unfold kSoftmax
  rw [kRowMax_eq, kRowSum_eq]
  rfl

end Cert.KernelIdeal.Val

end
-- ==== Proof.LibSumBlocks.lean ====
import Mathlib.Data.Fintype.BigOperators
import Mathlib.Logic.Equiv.Fin.Basic

namespace Cert.LibSumBlocks

open scoped BigOperators

/-- Entry `r` of block `t`, of `A` blocks of `B` entries, has index below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- In an additive commutative monoid a sum over `A * B` indices is the sum over the `A` blocks of the sums inside each block. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.KI.ValAcc6.lean ====
import proofs.«169203_j82712480186688_1_alg».proof.Proof.KI.Reg6
import proofs.«169203_j82712480186688_1_alg».proof.Proof.LibSumBlocks
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Val

open Cert.KernelIdeal Cert.KernelIdeal.Gen
open Idealize.ShloMosaic.ValueIdx
open scoped BigOperators

variable (V : (c : Dev nD) → (b : Ref sig .tc) → Buf (Elt Ideal) ((c : Thread nD τ).loc b))

theorem acc_pay1_apply (k : Fin 64) : (k6_pay1 (F := Ideal)) (ix2 (0 : Fin 1) k) = 0 := by
  unfold k6_pay1
  rw [shapeCast_self]
  exact Ideal.ofBits_zero_f32

/-- Over the extended reals the reduction over the rows of a block is, at column `k`, the sum of the column. -/
theorem colsum_apply (x : FVec Ideal S10000x64 .f32) (hφ : FKind.Formats .f32)
    (hacc : (0x00000000#32 : BitVec 32) = FKind.add.neutral .f32 hφ) (k : Fin 64) :
    multiReduction .add [0] S64 x 0x00000000#32 reduces_S10000x64_S64 hφ hacc (ix1 k)
      = ∑ r : Fin 10000, x (ix2 r k) := by
  refine (Ideal.multiReduction_add_single x 0x00000000#32 reduces_S10000x64_S64 hφ hacc (ix1 k)).trans ?_
  refine Finset.sum_congr rfl fun r _ => congrArg x ?_
  funext a
  match a with
  | ⟨0, _⟩ => rfl
  | ⟨1, _⟩ => rfl

theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)

theorem idx6_zero : ∀ (t : Fin cfg6.N) (a : Fin 2), win6_1.index t a = 0 ∧ win6_2.index t a = 0 ∧ win6_3.index t a = 0
    ∧ win6_4.index t a = 0 ∧ win6_5.index t a = 0 :=
  (by decide +kernel : ∀ (t : Fin grid6.N) (a : Fin 2), win6_1.index t a = 0 ∧ win6_2.index t a = 0 ∧ win6_3.index t a = 0
    ∧ win6_4.index t a = 0 ∧ win6_5.index t a = 0)

/-- At offset zero on every axis a block of the array's own size is the whole array. -/
theorem read_whole (b : Ref sig .tc) {ix : Fin b.ty.shape.rank → ℕ} (h : ∀ a, ix a = 0) {inb} (f : b.ty.Contents (Elt Ideal)) :
    ((Memref.whole b).access (Rect.unit (fun a => ix a * b.ty.shape.size a) b.ty.shape.size inb) : View sig .tc _ _ _).read (Elt Ideal) f = f :=
  Memref.read_access_unit_zero _ b (funext fun a => by rw [h a, Nat.zero_mul]) inb f

theorem iblk6_0_apply (c : Dev nD) (t : Fin cfg6.N) (r : Fin 10000) (k : Fin 64) (hb : 10000 * t.val + r.val < 100000) :
    (Fr.iblk6 (F := Ideal) V c 0 t : Vec Ideal S10000x64 .f32) (ix2 r k)
      = (V c main_v76 : Vec Ideal S100000x64 .f32) (ix2 ⟨10000 * t.val + r.val, hb⟩ k) := by
  obtain ⟨h0, h1⟩ := idx6_0 t
  unfold Fr.iblk6
  rw [View.read_apply]
  show V c main_v76 _ = V c main_v76 _
  congr 1
  funext a
  apply Fin.ext
  match a with
  | ⟨0, _⟩ => show win6_0.index t (0 : Fin 2) * 10000 + 1 * r.val = 10000 * t.val + r.val; rw [h0]; omega
  | ⟨1, _⟩ => show win6_0.index t (1 : Fin 2) * 64 + 1 * k.val = k.val; rw [h1]; omega

theorem iblk6_1 (c : Dev nD) (t : Fin cfg6.N) : (Fr.iblk6 (F := Ideal) V c 1 t : Vec Ideal S64x32 .f32) = V c main_arg8 :=
  read_whole main_arg8 (ix := win6_1.index t) (fun a => (idx6_zero t a).1) _

theorem iblk6_2 (c : Dev nD) (t : Fin cfg6.N) : (Fr.iblk6 (F := Ideal) V c 2 t : Vec Ideal S1x32 .f32) = V c main_v77 :=
  read_whole main_v77 (ix := win6_2.index t) (fun a => (idx6_zero t a).2.1) _

theorem iblk6_3 (c : Dev nD) (t : Fin cfg6.N) : (Fr.iblk6 (F := Ideal) V c 3 t : Vec Ideal S32x2 .f32) = V c main_arg10 :=
  read_whole main_arg10 (ix := win6_3.index t) (fun a => (idx6_zero t a).2.2.1) _

theorem iblk6_4 (c : Dev nD) (t : Fin cfg6.N) : (Fr.iblk6 (F := Ideal) V c 4 t : Vec Ideal S1x2 .f32) = V c main_v78 :=
  read_whole main_v78 (ix := win6_4.index t) (fun a => (idx6_zero t a).2.2.2.1) _

theorem nine_lt : 9 < cfg6.N := by rw [show cfg6.N = 10 from N_6]; decide

/-- What the last point stores: the accumulator after all ten points, scaled to the mean, through the classifier and the softmax. -/
abbrev out6 (c : Dev nD) : Vec Ideal S1x2 .f32 :=
  k6_pay3 (F := Ideal) (Fr.acc6 V c 9 nine_lt) (V c main_arg8) (V c main_v77) (V c main_arg10) (V c main_v78)

theorem flushed6_5 (c : Dev nD) (t : Fin cfg6.N) (hf : (cfg6.win 5).flush t = true) :
    (Fr.dat6 (F := Ideal) V c).flushed 5 t = ((cfg6.win 5).blk t).view.read (Elt Ideal) (out6 V c) := by
  have hN : cfg6.N = 10 := N_6
  have ht : t.val = 9 := by have := (flush6_5 t).mp hf; have := t.isLt; omega
  show (cfg6.win 5).cut (grid6.coords t) ((Fr.dat6 (F := Ideal) V c).after 5 t) = _
  rw [Fr.after6_5_last V c t ht, iblk6_1, iblk6_2, iblk6_3, iblk6_4]
  exact (read_whole main_v79 (ix := win6_5.index t) (fun a => (idx6_zero t a).2.2.2.2) (out6 V c)).symm

/-- The block the last point stores covers the output array, so after the region the array holds it. -/
theorem final6 (c : Dev nD) : ((Fr.dat6 (F := Ideal) V c).arrAt 5 cfg6.N : Vec Ideal S1x2 .f32) = out6 V c :=
  (Fr.dat6 (F := Ideal) V c).arrAt_eq_of_cover 5 (out6 V c) (flushed6_5 V c) fun i =>
    ⟨t6_9, (flush6_5 t6_9).mpr rfl, by
      show i ∈ ((View.whole main_v79).slice (win6_5.rect t6_9)).set
      rw [View.set_slice_whole, Rect.mem_set_unit]
      intro a
      have hx : ∀ a, win6_5.index t6_9 a * win6_5.size a = 0 ∧ win6_5.xsize (grid6.coords t6_9) a = main_v79.ty.shape.size a := by
        decide +kernel
      rw [(hx a).1, (hx a).2, Nat.zero_add]
      exact ⟨Nat.zero_le _, (i a).isLt⟩⟩

abbrev feat (c : Dev nD) : FVec Ideal S100000x64 .f32 := V c main_v76

/-- The sum of column `k` over row block `t` of the node features (zero past the ten blocks). -/
def blockSum (c : Dev nD) (k : Fin 64) (t : ℕ) : Ideal .f32 :=
  if h : t < 10 then
    ∑ r : Fin 10000, feat V c (ix2 ⟨10000 * t + r.val, by have := r.isLt; omega⟩ k)
  else 0

/-- One step adds to entry `k` of the accumulator the column sum of the point's row block. -/
theorem step6 (c : Dev nD) (k : Fin 64) (s : FVec Ideal S1x64 .f32) (t : Fin cfg6.N) :
    k6_pay2 (F := Ideal) s (Fr.iblk6 (F := Ideal) V c 0 t) (ix2 (0 : Fin 1) k) = s (ix2 (0 : Fin 1) k) + blockSum V c k t.val := by
  have hN : cfg6.N = 10 := N_6
  unfold k6_pay2 blockSum
  rw [shapeCast_self, shapeCast_self, dif_pos (by have := t.isLt; omega)]
  refine (addf_apply _ _ _).trans ?_
  congr 1
  refine (shapeCast_addUnit_apply ![64] _ shapeCasts_S64_S1x64 (ix2 (0 : Fin 1) k)).trans ?_
  have e : (fun a : Fin 1 => (ix2 (0 : Fin 1) k : S1x64.Idx) a.succ) = ix1 k := by
    funext a; match a with | ⟨0, _⟩ => rfl
  rw [e]
  exact (colsum_apply _ _ _ k).trans (Finset.sum_congr rfl fun r _ => iblk6_0_apply V c t r k _)

/-- By induction on the points: after point `n` entry `k` of the accumulator is the sum of the first `n + 1` block sums. -/
theorem acc6_prefix (c : Dev nD) (k : Fin 64) : ∀ (n : ℕ) (h : n < cfg6.N),
    Fr.acc6 (F := Ideal) V c n h (ix2 (0 : Fin 1) k) = ∑ t ∈ Finset.range (n + 1), blockSum V c k t
  | 0, h => by rw [Fr.acc6_zero, Finset.sum_range_one, step6 V c k _ ⟨0, h⟩, acc_pay1_apply, zero_add]
  | n + 1, h => by
    rw [Fr.acc6_succ, Finset.sum_range_succ, step6 V c k _ ⟨n + 1, h⟩, acc6_prefix c k n (Nat.lt_of_succ_lt h)]

/-- The ten blocks of 10000 rows are all 100000 rows, so after the last point entry `k` is the sum of column `k`. -/
theorem acc6_sum (c : Dev nD) (k : Fin 64) :
    Fr.acc6 (F := Ideal) V c 9 nine_lt (ix2 (0 : Fin 1) k) = ∑ n : Fin 100000, feat V c (ix2 n k) := by
  rw [acc6_prefix V c k 9 nine_lt, Finset.sum_range (fun t => blockSum V c k t),
    ← Cert.LibSumBlocks.sum_blocks (A := 10) (B := 10000) (N := 100000) (by norm_num)
      (fun n => feat V c (ix2 n k))]
  refine Finset.sum_congr rfl fun t _ => ?_
  unfold blockSum
  rw [dif_pos t.isLt]

end Cert.KernelIdeal.Val

end
-- ==== Proof.KI.ValChain.lean ====
import proofs.«169203_j82712480186688_1_alg».proof.Proof.KI.Fold6
import proofs.«169203_j82712480186688_1_alg».proof.Proof.KI.ValLin0
import proofs.«169203_j82712480186688_1_alg».proof.Proof.KI.ValLin2
import proofs.«169203_j82712480186688_1_alg».proof.Proof.KI.ValLin4
import proofs.«169203_j82712480186688_1_alg».proof.Proof.KI.ValBr1
import proofs.«169203_j82712480186688_1_alg».proof.Proof.KI.ValBr3
import proofs.«169203_j82712480186688_1_alg».proof.Proof.KI.ValBr5
import proofs.«169203_j82712480186688_1_alg».proof.Proof.KI.ValPrefix
import proofs.«169203_j82712480186688_1_alg».proof.Proof.KI.ValAgg
import proofs.«169203_j82712480186688_1_alg».proof.Proof.KI.ValTop
import proofs.«169203_j82712480186688_1_alg».proof.Proof.KI.ValAcc6

noncomputable section

namespace Cert.KernelIdeal.Val

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)

/-- Each region leaves the reference's array of the same arguments: a product region its two inputs' product, a bias region the bias addition and rectification of the layer's aggregate. -/
theorem X0_eq : Fr.X0 m c = val_main_v29 (F := Ideal) (a0 m c) (a2 m c) := by
  unfold Fr.X0
  refine (lin0 (V := Fr.atTc (Fr.U1 m)) c).trans ?_
  rw [show xArr0 (Fr.atTc (Fr.U1 m)) c = _ from U1_arg0 m c, show wArr0 (Fr.atTc (Fr.U1 m)) c = _ from U1_arg2 m c]
  rfl

theorem X1_eq : Fr.X1 m c = val_main_v46 (F := Ideal) (a0 m c) (a1 m c) (a2 m c) (a3 m c) := by
  unfold Fr.X1
  refine (br1 (V := Fr.atTc (Fr.U3 m)) c (a3 m c) (ker_b1 m c (U2_arg3 m c))).trans ?_
  exact (congrArg (fun z => maximumf (addf z _) _) (ker_agg1 m c ((U2_v29 m c).trans (X0_eq m c))
    ((U2_v3 m c).trans (pre_v3 m c)) ((U2_v6 m c).trans (pre_v6 m c)) ((U2_v28 m c).trans (pre_v28 m c)))).trans rfl

theorem X2_eq : Fr.X2 m c = val_main_v47 (F := Ideal) (a0 m c) (a1 m c) (a2 m c) (a3 m c) (a4 m c) := by
  unfold Fr.X2
  refine (lin2 (V := Fr.atTc (Fr.U4 m)) c).trans ?_
  rw [show xArr2 (Fr.atTc (Fr.U4 m)) c = _ from (U4_v44 m c).trans (X1_eq m c), show wArr2 (Fr.atTc (Fr.U4 m)) c = _ from U4_arg4 m c]
  rfl

theorem X3_eq : Fr.X3 m c = val_main_v64 (F := Ideal) (a0 m c) (a1 m c) (a2 m c) (a3 m c) (a4 m c) (a5 m c) := by
  unfold Fr.X3
  refine (br3 (V := Fr.atTc (Fr.U6 m)) c (a5 m c) (ker_b2 m c (U5_arg5 m c))).trans ?_
  exact (congrArg (fun z => maximumf (addf z _) _) (ker_agg2 m c ((U5_v45 m c).trans (X2_eq m c))
    ((U5_v3 m c).trans (pre_v3 m c)) ((U5_v6 m c).trans (pre_v6 m c)) ((U5_v28 m c).trans (pre_v28 m c)))).trans rfl

theorem X4_eq : Fr.X4 m c = val_main_v65 (F := Ideal) (a0 m c) (a1 m c) (a2 m c) (a3 m c) (a4 m c) (a5 m c) (a6 m c) := by
  unfold Fr.X4
  refine (lin4 (V := Fr.atTc (Fr.U7 m)) c).trans ?_
  rw [show xArr4 (Fr.atTc (Fr.U7 m)) c = _ from (U7_v60 m c).trans (X3_eq m c), show wArr4 (Fr.atTc (Fr.U7 m)) c = _ from U7_arg6 m c]
  rfl

theorem X5_eq : Fr.X5 m c = val_main_v82 (F := Ideal) (a0 m c) (a1 m c) (a2 m c) (a3 m c) (a4 m c) (a5 m c) (a6 m c) (a7 m c) := by
  unfold Fr.X5
  refine (br5 (V := Fr.atTc (Fr.U9 m)) c (a7 m c) (ker_b3 m c (U8_arg7 m c))).trans ?_
  exact (congrArg (fun z => maximumf (addf z _) _) (ker_agg3 m c ((U8_v61 m c).trans (X4_eq m c))
    ((U8_v3 m c).trans (pre_v3 m c)) ((U8_v6 m c).trans (pre_v6 m c)) ((U8_v28 m c).trans (pre_v28 m c)))).trans rfl

/-- The last region leaves the reference's pooling, classifier and softmax of the last layer's activations: its result term. -/
theorem X6_eq : Fr.X6 m c = Cert.ReferenceIdeal.Read.val_main_v104 (F := Ideal) (a0 m c) (a1 m c) (a2 m c) (a3 m c) (a4 m c) (a5 m c) (a6 m c) (a7 m c) (a8 m c) (a9 m c) (a10 m c) (a11 m c) := by
  unfold Fr.X6
  rw [final6 (V := Fr.atTc (Fr.U11 m)) c]
  show k6_pay3 (F := Ideal) _ (Fr.U11 m c main_arg8) (Fr.U11 m c main_v77) (Fr.U11 m c main_arg10) (Fr.U11 m c main_v78) = _
  rw [ker_b4 m c (U10_arg9 m c), ker_b5 m c (U10_arg11 m c), U11_arg8, U11_arg10]
  exact ker_top _ _ (fun k => acc6_sum (V := Fr.atTc (Fr.U11 m)) c k) ((U11_v76 m c).trans (X5_eq m c))

end Cert.KernelIdeal.Val

end
-- ==== Proof.lean ====
import proofs.«169203_j82712480186688_1_alg».proof.Defs
import proofs.«169203_j82712480186688_1_alg».proof.Proof.Gen.Kernel
import proofs.«169203_j82712480186688_1_alg».proof.Proof.Gen.KernelIdeal
import proofs.«169203_j82712480186688_1_alg».proof.Proof.Gen.ReferenceIdeal
import proofs.«169203_j82712480186688_1_alg».proof.Proof.Gen.Pre_finite_inputs
import proofs.«169203_j82712480186688_1_alg».proof.Proof.KB.Run
import proofs.«169203_j82712480186688_1_alg».proof.Proof.KI.Run
import proofs.«169203_j82712480186688_1_alg».proof.Proof.KI.ValChain
import proofs.«169203_j82712480186688_1_alg».proof.Proof.RefRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => (θ_run _ _ _).mono
  (fun r h c => Cert.Kernel.Fr.kept (F := Bits) m c (h c)) (Cert.Kernel.Fr.run_all (F := Bits) m ρ)

theorem frame_pi : Cert.frame_KernelIdeal := fun m ρ _ => (θ_run _ _ _).mono
  (fun r h c => Cert.KernelIdeal.Fr.kept (F := Ideal) m c (h c)) (Cert.KernelIdeal.Fr.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The certificate's table gives the named reciprocal of the node count the value 1/100000. -/
theorem preserves : Cert.preserves_Kernel_KernelIdeal :=
  IdealRules.named_const.statement Cert.KernelIdeal.κ "inv_100000" .f32 0x3727C5AC#32 ((1 / 100000 : ℝ) : EReal) rfl

/-- The idealized kernel program ends with region 6's output array, the reference with its result term of arguments that agree: one array. -/
theorem algebraic : Cert.algebraic_KernelIdeal_ReferenceIdeal := by
  intro m ρ m' ρ' _ hagree
  refine ⟨fun c => Cert.KernelIdeal.Fr.X6 (F := Ideal) m c, (θ_run _ _ _).mono (fun r h c => ?_) (Cert.KernelIdeal.Fr.run_all (F := Ideal) m ρ), ?_⟩
  · exact ⟨Cert.KernelIdeal.Fr.result_at m c (h c), Cert.KernelIdeal.Fr.kept (F := Ideal) m c (h c)⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v104_eq, e0, e1, e2, e3, e4, e5, e6, e7, e8, e9, e10, e11]
  exact (Cert.KernelIdeal.Val.X6_eq m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
